-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x10 : S_.BroadcastsInDim S32x10 (![] : Fin 0 → Fin S32x10.rank)
  reducesTo_S32x10_S_d0_1 : S32x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg11 : FVec F S10 .f32) (main_v48 : IVec S_ 1) (main_v49 : FVec F S32x10 .f32) (main_v50 : FVec F S32x10 .f32) : IVec S_ 1 :=
  let main_v51 : IVec S32x10 1 := cmpf .olt main_v49 main_v50
  let main_c_19 : IVec S_ 1 := constantI S_ 1 1#1
  let main_v52 : IVec S_ 1 := (fun x v => Host.reduce IntOp.andi x v reducesTo_S32x10_S_d0_1 h_S_) main_v51 main_c_19
  let main_v53 : IVec S_ 1 := andi main_v48 main_v52
  let main_v54 : FVec F S10 .f32 := Host.absf main_arg11
  let main_cst_20 : FVec F S_ .f32 := constant S_ .f32 0x7F800000#32
  let main_v55 : FVec F S10 .f32 := broadcastInDim S10 ![] bcast_S_S10 main_cst_20
  let main_v56 : IVec S10 1 := cmpf .olt main_v54 main_v55
  let main_c_21 : IVec S_ 1 := constantI S_ 1 1#1
  let main_v57 : IVec S_ 1 := (fun x v => Host.reduce IntOp.andi x v reducesTo_S10_S_d0 h_S_) main_v56 main_c_21
  let main_v58 : IVec S_ 1 := andi main_v53 main_v57
  main_v58

def fn_part2 {F : FTy → Type} [FloatOps F] (main_arg7 : FVec F S64 .f32) (main_arg8 : FVec F S64x32 .f32) (main_arg9 : FVec F S32 .f32) (main_arg10 : FVec F S32x10 .f32) (main_arg11 : FVec F S10 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x32 .f32 := Host.absf main_arg8
  let main_cst_14 : FVec F S_ .f32 := constant S_ .f32 0x7F800000#32
  let main_v40 : FVec F S64x32 .f32 := broadcastInDim S64x32 ![] bcast_S_S64x32 main_cst_14
  let main_v41 : IVec S64x32 1 := cmpf .olt main_v39 main_v40
  let main_c_15 : IVec S_ 1 := constantI S_ 1 1#1
  let main_v42 : IVec S_ 1 := (fun x v => Host.reduce IntOp.andi x v reducesTo_S64x32_S_d0_1 h_S_) main_v41 main_c_15
  let main_v43 : IVec S_ 1 := andi main_v38 main_v42
  let main_v44 : FVec F S32 .f32 := Host.absf main_arg9
  let main_cst_16 : FVec F S_ .f32 := constant S_ .f32 0x7F800000#32
  let main_v45 : FVec F S32 .f32 := broadcastInDim S32 ![] bcast_S_S32 main_cst_16
  let main_v46 : IVec S32 1 := cmpf .olt main_v44 main_v45
  let main_c_17 : IVec S_ 1 := constantI S_ 1 1#1
  let main_v47 : IVec S_ 1 := (fun x v => Host.reduce IntOp.andi x v reducesTo_S32_S_d0 h_S_) main_v46 main_c_17
  let main_v48 : IVec S_ 1 := andi main_v43 main_v47
  let main_v49 : FVec F S32x10 .f32 := Host.absf main_arg10
  let main_cst_18 : FVec F S_ .f32 := constant S_ .f32 0x7F800000#32
  let main_v50 : FVec F S32x10 .f32 := broadcastInDim S32x10 ![] bcast_S_S32x10 main_cst_18
  fn_part3 (F := F) main_arg11 main_v48 main_v49 main_v50

def fn_part1 {F : FTy → Type} [FloatOps F] (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x10 .f32) (main_arg11 : FVec F S10 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16x32 .f32 := Host.absf main_arg4
  let main_cst_6 : FVec F S_ .f32 := constant S_ .f32 0x7F800000#32
  let main_v20 : FVec F S16x32 .f32 := broadcastInDim S16x32 ![] bcast_S_S16x32 main_cst_6
  let main_v21 : IVec S16x32 1 := cmpf .olt main_v19 main_v20
  let main_c_7 : IVec S_ 1 := constantI S_ 1 1#1
  let main_v22 : IVec S_ 1 := (fun x v => Host.reduce IntOp.andi x v reducesTo_S16x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x64 .f32 := Host.absf main_arg6
  let main_cst_10 : FVec F S_ .f32 := constant S_ .f32 0x7F800000#32
  let main_v30 : FVec F S32x64 .f32 := broadcastInDim S32x64 ![] bcast_S_S32x64 main_cst_10
  let main_v31 : IVec S32x64 1 := cmpf .olt main_v29 main_v30
  let main_c_11 : IVec S_ 1 := constantI S_ 1 1#1
  let main_v32 : IVec S_ 1 := (fun x v => Host.reduce IntOp.andi x v reducesTo_S32x64_S_d0_1 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S8192x128 .f32) (main_arg1 : FVec F S8192x8192 .f32) (main_arg2 : FVec F S128x16 .f32) (main_arg3 : FVec F S16 .f32) (main_arg4 : FVec F S16x32 .f32) (main_arg5 : FVec F S32 .f32) (main_arg6 : FVec F S32x64 .f32) (main_arg7 : FVec F S64 .f32) (main_arg8 : FVec F S64x32 .f32) (main_arg9 : FVec F S32 .f32) (main_arg10 : FVec F S32x10 .f32) (main_arg11 : FVec F S10 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  let main_v14 : FVec F S16 .f32 := Host.absf main_arg3
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg4 main_arg5 main_arg6 main_arg7 main_arg8 main_arg9 main_arg10 main_arg11 main_v13 main_v16
-- ==== Kernel.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S1x16 : Shape := ⟨2, ![1, 16]⟩
abbrev S8192x16 : Shape := ⟨2, ![8192, 16]⟩
abbrev S1024x2048 : Shape := ⟨2, ![1024, 2048]⟩
abbrev S2048x128 : Shape := ⟨2, ![2048, 128]⟩
abbrev S1024x16 : Shape := ⟨2, ![1024, 16]⟩
abbrev S2048x16 : Shape := ⟨2, ![2048, 16]⟩
abbrev S1x32 : Shape := ⟨2, ![1, 32]⟩
abbrev S8192x32 : Shape := ⟨2, ![8192, 32]⟩
abbrev S1024x32 : Shape := ⟨2, ![1024, 32]⟩
abbrev S2048x32 : Shape := ⟨2, ![2048, 32]⟩
abbrev S1x64 : Shape := ⟨2, ![1, 64]⟩
abbrev S8192x64 : Shape := ⟨2, ![8192, 64]⟩
abbrev S1024x64 : Shape := ⟨2, ![1024, 64]⟩
abbrev S2048x64 : Shape := ⟨2, ![2048, 64]⟩
abbrev S_ : Shape := ⟨0, ![]⟩
abbrev S8192x10 : Shape := ⟨2, ![8192, 10]⟩
abbrev S1x10 : Shape := ⟨2, ![1, 10]⟩

abbrev nBuf : Space → Nat
  | .hbm => 29
  | .vmem => 27
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S1x16, .f32⟩
  | .hbm, ⟨13, _⟩ => ⟨S8192x16, .f32⟩
  | .hbm, ⟨14, _⟩ => ⟨S1x32, .f32⟩
  | .hbm, ⟨15, _⟩ => ⟨S8192x32, .f32⟩
  | .hbm, ⟨16, _⟩ => ⟨S1x64, .f32⟩
  | .hbm, ⟨17, _⟩ => ⟨S8192x64, .f32⟩
  | .hbm, ⟨18, _⟩ => ⟨S8192x32, .f32⟩
  | .hbm, ⟨19, _⟩ => ⟨S1x32, .f32⟩
  | .hbm, ⟨20, _⟩ => ⟨S8192x32, .f32⟩
  | .hbm, ⟨21, _⟩ => ⟨S8192x32, .f32⟩
  | .hbm, ⟨22, _⟩ => ⟨S_, .f32⟩
  | .hbm, ⟨23, _⟩ => ⟨S8192x32, .f32⟩
  | .hbm, ⟨24, _⟩ => ⟨S8192x32, .f32⟩
  | .hbm, ⟨25, _⟩ => ⟨S8192x10, .f32⟩
  | .hbm, ⟨26, _⟩ => ⟨S1x10, .f32⟩
  | .hbm, ⟨27, _⟩ => ⟨S8192x10, .f32⟩
  | .hbm, ⟨28, _⟩ => ⟨S8192x10, .f32⟩
  | .local _ .vmem, ⟨0, _⟩ => ⟨S1024x2048, .f32⟩
  | .local _ .vmem, ⟨1, _⟩ => ⟨S1024x2048, .f32⟩
  | .local _ .vmem, ⟨2, _⟩ => ⟨S2048x128, .f32⟩
  | .local _ .vmem, ⟨3, _⟩ => ⟨S2048x128, .f32⟩
  | .local _ .vmem, ⟨4, _⟩ => ⟨S128x16, .f32⟩
  | .local _ .vmem, ⟨5, _⟩ => ⟨S1x16, .f32⟩
  | .local _ .vmem, ⟨6, _⟩ => ⟨S1024x16, .f32⟩
  | .local _ .vmem, ⟨7, _⟩ => ⟨S1024x16, .f32⟩
  | .local _ .vmem, ⟨8, _⟩ => ⟨S1024x16, .f32⟩
  | .local _ .vmem, ⟨9, _⟩ => ⟨S1024x2048, .f32⟩
  | .local _ .vmem, ⟨10, _⟩ => ⟨S1024x2048, .f32⟩
  | .local _ .vmem, ⟨11, _⟩ => ⟨S2048x16, .f32⟩
  | .local _ .vmem, ⟨12, _⟩ => ⟨S2048x16, .f32⟩
  | .local _ .vmem, ⟨13, _⟩ => ⟨S16x32, .f32⟩
  | .local _ .vmem, ⟨14, _⟩ => ⟨S1x32, .f32⟩
  | .local _ .vmem, ⟨15, _⟩ => ⟨S1024x32, .f32⟩
  | .local _ .vmem, ⟨16, _⟩ => ⟨S1024x32, .f32⟩
  | .local _ .vmem, ⟨17, _⟩ => ⟨S1024x32, .f32⟩
  | .local _ .vmem, ⟨18, _⟩ => ⟨S1024x2048, .f32⟩
  | .local _ .vmem, ⟨19, _⟩ => ⟨S1024x2048, .f32⟩
  | .local _ .vmem, ⟨20, _⟩ => ⟨S2048x32, .f32⟩
  | .local _ .vmem, ⟨21, _⟩ => ⟨S2048x32, .f32⟩
  | .local _ .vmem, ⟨22, _⟩ => ⟨S32x64, .f32⟩
  | .local _ .vmem, ⟨23, _⟩ => ⟨S1x64, .f32⟩
  | .local _ .vmem, ⟨24, _⟩ => ⟨S1024x64, .f32⟩
  | .local _ .vmem, ⟨25, _⟩ => ⟨S1024x64, .f32⟩
  | .local _ .vmem, ⟨26, _⟩ => ⟨S1024x64, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_call0_cst : Ref sig .tc := ⟨.hbm, 22, rfl⟩
abbrev main_call0_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg3_0 : Ref sig .tc := ⟨.vmem, 23, rfl⟩
abbrev cc2_stg4_0 : Ref sig .tc := ⟨.vmem, 24, rfl⟩
abbrev cc2_stg4_1 : Ref sig .tc := ⟨.vmem, 25, rfl⟩
abbrev cc2_scratch0 : Ref sig .tc := ⟨.vmem, 26, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem1_1 : DmaSem sig := 11
abbrev cc1_sem2_0 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v21 : BitVec 1 := Scalar.cmpi .eq arg1 c3_i32
  let v22 : BitVec 32 := Scalar.extui v21
  let c0_i32_13 : BitVec 32 := 0#32
  let v23 : BitVec 1 := Scalar.cmpi .ne v22 c0_i32_13
  v23

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S128x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x16 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_13 : BitVec 32 := 0#32
  let v24 : BitVec 1 := Scalar.cmpi .ne v23 c0_i32_13
  v24

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x16 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S16x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1024x32 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev grid2 : Pipeline.Grid := ⟨2, ![8, 4], ![false, false]⟩

def k2_cond2 (i : grid2.Coords) : BitVec 1 :=
  let arg1 : BitVec 32 := BitVec.ofNat 32 (i 1).val
  let c3_i32 : BitVec 32 := 3#32
  let v22 : BitVec 1 := Scalar.cmpi .eq arg1 c3_i32
  let v23 : BitVec 32 := Scalar.extui v22
  let c0_i32_13 : BitVec 32 := 0#32
  let v24 : BitVec 1 := Scalar.cmpi .ne v23 c0_i32_13
  v24

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage2_0 : Fin 2 → Memref sig .tc .vmem S1024x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 2 → Memref sig .tc .vmem S2048x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S32x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 2 → Memref sig .tc .vmem S1024x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, false]

class Facts₀ : Prop where
  shapeCasts_S16_S1x16 : S16.ShapeCasts S1x16
  inb_S1024x16_S1024x16_0_0 : ∀ a, (![0, 0] : Fin 2 → Nat) a + S1024x16.size a ≤ S1024x16.size a
  h_S1024x16 : 0 < S1024x16.numel
  shapeCasts_S1024x16_S1024x16 : S1024x16.ShapeCasts S1024x16
  inb_S2048x128_S2048x128_0_0 : ∀ a, (![0, 0] : Fin 2 → Nat) a + S2048x128.size a ≤ S2048x128.size a
  h_S2048x128 : 0 < S2048x128.numel
  bitsLt_bf16_f32 : FTy.bits .bf16 < FTy.bits .f32
  inb_S128x16_S128x16_0_0 : ∀ a, (![0, 0] : Fin 2 → Nat) a + S128x16.size a ≤ S128x16.size a
  h_S128x16 : 0 < S128x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  inb_S1024x2048_S1024x2048_0_0 : ∀ a, (![0, 0] : Fin 2 → Nat) a + S1024x2048.size a ≤ S1024x2048.size a
  h_S1024x2048 : 0 < S1024x2048.numel
  shapeCasts_S32_S1x32 : S32.ShapeCasts S1x32
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  inb_S2048x16_S2048x16_0_0 : ∀ a, (![0, 0] : Fin 2 → Nat) a + S2048x16.size a ≤ S2048x16.size a
  h_S2048x16 : 0 < S2048x16.numel
  shapeCasts_S2048x16_S2048x16 : S2048x16.ShapeCasts S2048x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S2048x32 : S1x32.Broadcasts S2048x32
  shapeCasts_S64_S1x64 : S64.ShapeCasts S1x64
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S2048x32_S2048x32_0_0 : ∀ a, (![0, 0] : Fin 2 → Nat) a + S2048x32.size a ≤ S2048x32.size a
  h_S2048x32 : 0 < S2048x32.numel
  shapeCasts_S2048x32_S2048x32 : S2048x32.ShapeCasts S2048x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2048x64 : S1x64.Broadcasts S2048x64
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S2048x128_S128x16_S2048x16_1_0_0_1_n_n_wf : DotDims.WF S2048x128 S128x16 S2048x16 [1] [0] [0] [1] [] []
  dot_S1024x2048_S2048x16_S1024x16_1_0_0_1_n_n_wf : DotDims.WF S1024x2048 S2048x16 S1024x16 [1] [0] [0] [1] [] []
  dot_S2048x16_S16x32_S2048x32_1_0_0_1_n_n_wf : DotDims.WF S2048x16 S16x32 S2048x32 [1] [0] [0] [1] [] []
  dot_S1024x2048_S2048x32_S1024x32_1_0_0_1_n_n_wf : DotDims.WF S1024x2048 S2048x32 S1024x32 [1] [0] [0] [1] [] []
  dot_S2048x32_S32x64_S2048x64_1_0_0_1_n_n_wf : DotDims.WF S2048x32 S32x64 S2048x64 [1] [0] [0] [1] [] []
  dot_S1024x2048_S2048x64_S1024x64_1_0_0_1_n_n_wf : DotDims.WF S1024x2048 S2048x64 S1024x64 [1] [0] [0] [1] [] []
  dot_S8192x64_S64x32_S8192x32_1_0_0_1_n_n_wf : DotDims.WF S8192x64 S64x32 S8192x32 [1] [0] [0] [1] [] []
  dot_S8192x32_S32x10_S8192x10_1_0_0_1_n_n_wf : DotDims.WF S8192x32 S32x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S8192x8192.size a
  hwx0_0 : ∀ i : grid0.Coords, EltTy.bits .f32 = 32 ∨ (Rect.block (s := S8192x8192) S1024x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S8192x128.size a
  hwx0_1 : ∀ i : grid0.Coords, EltTy.bits .f32 = 32 ∨ (Rect.block (s := S8192x128) S2048x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16.size a ≤ S128x16.size a
  hwx0_2 : ∀ i : grid0.Coords, EltTy.bits .f32 = 32 ∨ (Rect.block (s := S128x16) S128x16.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x16.size a ≤ S1x16.size a
  hwx0_3 : ∀ i : grid0.Coords, EltTy.bits .f32 = 32 ∨ (Rect.block (s := S1x16) S1x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x16.size a ≤ S8192x16.size a
  hwx0_4 : ∀ i : grid0.Coords, EltTy.bits .f32 = 32 ∨ (Rect.block (s := S8192x16) S1024x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x2048.size a ≤ S8192x8192.size a
  hwx1_0 : ∀ i : grid1.Coords, EltTy.bits .f32 = 32 ∨ (Rect.block (s := S8192x8192) S1024x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2048x16.size a ≤ S8192x16.size a
  hwx1_1 : ∀ i : grid1.Coords, EltTy.bits .f32 = 32 ∨ (Rect.block (s := S8192x16) S2048x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x32.size a ≤ S16x32.size a
  hwx1_2 : ∀ i : grid1.Coords, EltTy.bits .f32 = 32 ∨ (Rect.block (s := S16x32) S16x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1024x32.size a ≤ S8192x32.size a
  hwx1_4 : ∀ i : grid1.Coords, EltTy.bits .f32 = 32 ∨ (Rect.block (s := S8192x32) S1024x32.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x2048.size a ≤ S8192x8192.size a
  hwx2_0 : ∀ i : grid2.Coords, EltTy.bits .f32 = 32 ∨ (Rect.block (s := S8192x8192) S1024x2048.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2048x32.size a ≤ S8192x32.size a
  hwx2_1 : ∀ i : grid2.Coords, EltTy.bits .f32 = 32 ∨ (Rect.block (s := S8192x32) S2048x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x64.size a ≤ S32x64.size a
  hwx2_2 : ∀ i : grid2.Coords, EltTy.bits .f32 = 32 ∨ (Rect.block (s := S32x64) S32x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S1024x64.size a ≤ S8192x64.size a
  hwx2_4 : ∀ i : grid2.Coords, EltTy.bits .f32 = 32 ∨ (Rect.block (s := S8192x64) S1024x64.size (cc2_transform_4 i) (hinb2_4 i)).WholeWords (EltTy.packing .f32)

variable [Facts₀]

def dot_S2048x128_S128x16_S2048x16_1_0_0_1_n_n : DotDims S2048x128 S128x16 S2048x16 where
  lhsContracting := [1]
  rhsContracting := [0]
  lhsNonContracting := [0]
  rhsNonContracting := [1]
  lhsBatch := []
  rhsBatch := []
  wf := dot_S2048x128_S128x16_S2048x16_1_0_0_1_n_n_wf
def dot_S1024x2048_S2048x16_S1024x16_1_0_0_1_n_n : DotDims S1024x2048 S2048x16 S1024x16 where
  lhsContracting := [1]
  rhsContracting := [0]
  lhsNonContracting := [0]
  rhsNonContracting := [1]
  lhsBatch := []
  rhsBatch := []
  wf := dot_S1024x2048_S2048x16_S1024x16_1_0_0_1_n_n_wf
def dot_S2048x16_S16x32_S2048x32_1_0_0_1_n_n : DotDims S2048x16 S16x32 S2048x32 where
  lhsContracting := [1]
  rhsContracting := [0]
  lhsNonContracting := [0]
  rhsNonContracting := [1]
  lhsBatch := []
  rhsBatch := []
  wf := dot_S2048x16_S16x32_S2048x32_1_0_0_1_n_n_wf
def dot_S1024x2048_S2048x32_S1024x32_1_0_0_1_n_n : DotDims S1024x2048 S2048x32 S1024x32 where
  lhsContracting := [1]
  rhsContracting := [0]
  lhsNonContracting := [0]
  rhsNonContracting := [1]
  lhsBatch := []
  rhsBatch := []
  wf := dot_S1024x2048_S2048x32_S1024x32_1_0_0_1_n_n_wf
def dot_S2048x32_S32x64_S2048x64_1_0_0_1_n_n : DotDims S2048x32 S32x64 S2048x64 where
  lhsContracting := [1]
  rhsContracting := [0]
  lhsNonContracting := [0]
  rhsNonContracting := [1]
  lhsBatch := []
  rhsBatch := []
  wf := dot_S2048x32_S32x64_S2048x64_1_0_0_1_n_n_wf
def dot_S1024x2048_S2048x64_S1024x64_1_0_0_1_n_n : DotDims S1024x2048 S2048x64 S1024x64 where
  lhsContracting := [1]
  rhsContracting := [0]
  lhsNonContracting := [0]
  rhsNonContracting := [1]
  lhsBatch := []
  rhsBatch := []
  wf := dot_S1024x2048_S2048x64_S1024x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x10_S8192x10_1_0_0_1_n_n : DotDims S8192x32 S32x10 S8192x10 where
  lhsContracting := [1]
  rhsContracting := [0]
  lhsNonContracting := [0]
  rhsNonContracting := [1]
  lhsBatch := []
  rhsBatch := []
  wf := dot_S8192x32_S32x10_S8192x10_1_0_0_1_n_n_wf

abbrev win0_0 : Pipeline.Window sig grid0 :=
  Pipeline.Window.ofSpec (Memref.whole main_arg1) S1024x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x16.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

abbrev win1_0 : Pipeline.Window sig grid1 :=
  Pipeline.Window.ofSpec (Memref.whole main_arg1) S1024x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S2048x16.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S16x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v2) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S1024x32.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev idle1 : Fin 5 → grid1.Coords → Bool := fun | 0 => fun _ => false | 1 => fun _ => false | 2 => fun _ => false | 3 => fun _ => false | 4 => fun i => !(k1_cond2 i == 1#1) | ⟨_ + 5, h⟩ => absurd h (Nat.not_lt.2 (Nat.le_add_left _ _))

abbrev win2_0 : Pipeline.Window sig grid2 :=
  Pipeline.Window.ofSpec (Memref.whole main_arg1) S1024x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S2048x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg6) S32x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v4) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v5) S1024x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x16 : Shape := ⟨2, ![128, 16]⟩
abbrev S16 : Shape := ⟨1, ![16]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x10 : Shape := ⟨2, ![32, 10]⟩
abbrev S10 : Shape := ⟨1, ![10]⟩
abbrev S8192x16 : Shape := ⟨2, ![8192, 16]⟩
abbrev S1x16 : Shape := ⟨2, ![1, 16]⟩
abbrev S_ : Shape := ⟨0, ![]⟩
abbrev S8192x32 : Shape := ⟨2, ![8192, 32]⟩
abbrev S1x32 : Shape := ⟨2, ![1, 32]⟩
abbrev S8192x64 : Shape := ⟨2, ![8192, 64]⟩
abbrev S1x64 : Shape := ⟨2, ![1, 64]⟩
abbrev S8192x10 : Shape := ⟨2, ![8192, 10]⟩
abbrev S1x10 : Shape := ⟨2, ![1, 10]⟩

abbrev nBuf : Space → Nat
  | .hbm => 47
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x16, .f32⟩
  | .hbm, ⟨3, _⟩ => ⟨S16, .f32⟩
  | .hbm, ⟨4, _⟩ => ⟨S16x32, .f32⟩
  | .hbm, ⟨5, _⟩ => ⟨S32, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x10, .f32⟩
  | .hbm, ⟨11, _⟩ => ⟨S10, .f32⟩
  | .hbm, ⟨12, _⟩ => ⟨S8192x16, .f32⟩
  | .hbm, ⟨13, _⟩ => ⟨S1x16, .f32⟩
  | .hbm, ⟨14, _⟩ => ⟨S8192x16, .f32⟩
  | .hbm, ⟨15, _⟩ => ⟨S8192x16, .f32⟩
  | .hbm, ⟨16, _⟩ => ⟨S8192x16, .f32⟩
  | .hbm, ⟨17, _⟩ => ⟨S_, .f32⟩
  | .hbm, ⟨18, _⟩ => ⟨S8192x16, .f32⟩
  | .hbm, ⟨19, _⟩ => ⟨S8192x16, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S8192x32, .f32⟩
  | .hbm, ⟨25, _⟩ => ⟨S_, .f32⟩
  | .hbm, ⟨26, _⟩ => ⟨S8192x32, .f32⟩
  | .hbm, ⟨27, _⟩ => ⟨S8192x32, .f32⟩
  | .hbm, ⟨28, _⟩ => ⟨S8192x64, .f32⟩
  | .hbm, ⟨29, _⟩ => ⟨S1x64, .f32⟩
  | .hbm, ⟨30, _⟩ => ⟨S8192x64, .f32⟩
  | .hbm, ⟨31, _⟩ => ⟨S8192x64, .f32⟩
  | .hbm, ⟨32, _⟩ => ⟨S8192x64, .f32⟩
  | .hbm, ⟨33, _⟩ => ⟨S_, .f32⟩
  | .hbm, ⟨34, _⟩ => ⟨S8192x64, .f32⟩
  | .hbm, ⟨35, _⟩ => ⟨S8192x64, .f32⟩
  | .hbm, ⟨36, _⟩ => ⟨S8192x32, .f32⟩
  | .hbm, ⟨37, _⟩ => ⟨S1x32, .f32⟩
  | .hbm, ⟨38, _⟩ => ⟨S8192x32, .f32⟩
  | .hbm, ⟨39, _⟩ => ⟨S8192x32, .f32⟩
  | .hbm, ⟨40, _⟩ => ⟨S_, .f32⟩
  | .hbm, ⟨41, _⟩ => ⟨S8192x32, .f32⟩
  | .hbm, ⟨42, _⟩ => ⟨S8192x32, .f32⟩
  | .hbm, ⟨43, _⟩ => ⟨S8192x10, .f32⟩
  | .hbm, ⟨44, _⟩ => ⟨S1x10, .f32⟩
  | .hbm, ⟨45, _⟩ => ⟨S8192x10, .f32⟩
  | .hbm, ⟨46, _⟩ => ⟨S8192x10, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_call0_cst : Ref sig .tc := ⟨.hbm, 17, rfl⟩
abbrev main_call0_v0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_call1_cst : Ref sig .tc := ⟨.hbm, 25, rfl⟩
abbrev main_call1_v0 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_call2_cst : Ref sig .tc := ⟨.hbm, 33, rfl⟩
abbrev main_call2_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_call3_cst : Ref sig .tc := ⟨.hbm, 40, rfl⟩
abbrev main_call3_v0 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]

class Facts₀ : Prop where
  bcast_S16_S1x16_1 : S16.BroadcastsInDim S1x16 (![1] : Fin 1 → Fin S1x16.rank)
  bcast_S1x16_S8192x16_0_1 : S1x16.BroadcastsInDim S8192x16 (![0, 1] : Fin 2 → Fin S8192x16.rank)
  bcast_S_S8192x16 : S_.BroadcastsInDim S8192x16 (![] : Fin 0 → Fin S8192x16.rank)
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  bcast_S64_S1x64_1 : S64.BroadcastsInDim S1x64 (![1] : Fin 1 → Fin S1x64.rank)
  bcast_S1x64_S8192x64_0_1 : S1x64.BroadcastsInDim S8192x64 (![0, 1] : Fin 2 → Fin S8192x64.rank)
  bcast_S_S8192x64 : S_.BroadcastsInDim S8192x64 (![] : Fin 0 → Fin S8192x64.rank)
  bcast_S10_S1x10_1 : S10.BroadcastsInDim S1x10 (![1] : Fin 1 → Fin S1x10.rank)
  bcast_S1x10_S8192x10_0_1 : S1x10.BroadcastsInDim S8192x10 (![0, 1] : Fin 2 → Fin S8192x10.rank)
  dot_S8192x128_S128x16_S8192x16_1_0_0_1_n_n_wf : DotDims.WF S8192x128 S128x16 S8192x16 [1] [0] [0] [1] [] []
  dot_S8192x8192_S8192x16_S8192x16_1_0_0_1_n_n_wf : DotDims.WF S8192x8192 S8192x16 S8192x16 [1] [0] [0] [1] [] []
  dot_S8192x16_S16x32_S8192x32_1_0_0_1_n_n_wf : DotDims.WF S8192x16 S16x32 S8192x32 [1] [0] [0] [1] [] []
  dot_S8192x8192_S8192x32_S8192x32_1_0_0_1_n_n_wf : DotDims.WF S8192x8192 S8192x32 S8192x32 [1] [0] [0] [1] [] []
  dot_S8192x32_S32x64_S8192x64_1_0_0_1_n_n_wf : DotDims.WF S8192x32 S32x64 S8192x64 [1] [0] [0] [1] [] []
  dot_S8192x8192_S8192x64_S8192x64_1_0_0_1_n_n_wf : DotDims.WF S8192x8192 S8192x64 S8192x64 [1] [0] [0] [1] [] []
  dot_S8192x64_S64x32_S8192x32_1_0_0_1_n_n_wf : DotDims.WF S8192x64 S64x32 S8192x32 [1] [0] [0] [1] [] []
  dot_S8192x32_S32x10_S8192x10_1_0_0_1_n_n_wf : DotDims.WF S8192x32 S32x10 S8192x10 [1] [0] [0] [1] [] []

variable [Facts₀]

def dot_S8192x128_S128x16_S8192x16_1_0_0_1_n_n : DotDims S8192x128 S128x16 S8192x16 where
  lhsContracting := [1]
  rhsContracting := [0]
  lhsNonContracting := [0]
  rhsNonContracting := [1]
  lhsBatch := []
  rhsBatch := []
  wf := dot_S8192x128_S128x16_S8192x16_1_0_0_1_n_n_wf
def dot_S8192x8192_S8192x16_S8192x16_1_0_0_1_n_n : DotDims S8192x8192 S8192x16 S8192x16 where
  lhsContracting := [1]
  rhsContracting := [0]
  lhsNonContracting := [0]
  rhsNonContracting := [1]
  lhsBatch := []
  rhsBatch := []
  wf := dot_S8192x8192_S8192x16_S8192x16_1_0_0_1_n_n_wf
def dot_S8192x16_S16x32_S8192x32_1_0_0_1_n_n : DotDims S8192x16 S16x32 S8192x32 where
  lhsContracting := [1]
  rhsContracting := [0]
  lhsNonContracting := [0]
  rhsNonContracting := [1]
  lhsBatch := []
  rhsBatch := []
  wf := dot_S8192x16_S16x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x64_S8192x64_1_0_0_1_n_n : DotDims S8192x32 S32x64 S8192x64 where
  lhsContracting := [1]
  rhsContracting := [0]
  lhsNonContracting := [0]
  rhsNonContracting := [1]
  lhsBatch := []
  rhsBatch := []
  wf := dot_S8192x32_S32x64_S8192x64_1_0_0_1_n_n_wf
def dot_S8192x8192_S8192x64_S8192x64_1_0_0_1_n_n : DotDims S8192x8192 S8192x64 S8192x64 where
  lhsContracting := [1]
  rhsContracting := [0]
  lhsNonContracting := [0]
  rhsNonContracting := [1]
  lhsBatch := []
  rhsBatch := []
  wf := dot_S8192x8192_S8192x64_S8192x64_1_0_0_1_n_n_wf
def dot_S8192x64_S64x32_S8192x32_1_0_0_1_n_n : DotDims S8192x64 S64x32 S8192x32 where
  lhsContracting := [1]
  rhsContracting := [0]
  lhsNonContracting := [0]
  rhsNonContracting := [1]
  lhsBatch := []
  rhsBatch := []
  wf := dot_S8192x64_S64x32_S8192x32_1_0_0_1_n_n_wf
def dot_S8192x32_S32x10_S8192x10_1_0_0_1_n_n : DotDims S8192x32 S32x10 S8192x10 where
  lhsContracting := [1]
  rhsContracting := [0]
  lhsNonContracting := [0]
  rhsNonContracting := [1]
  lhsBatch := []
  rhsBatch := []
  wf := dot_S8192x32_S32x10_S8192x10_1_0_0_1_n_n_wf

class Facts : Prop extends Facts₀ where

variable [Facts]
-- ==== Proof.K.L0Setup.lean ====
import proofs.«114493_j18348100288854_1_alg».proof.Proof.Gen.Kernel.Launch
import proofs.«114493_j18348100288854_1_alg».proof.Proof.Gen.Kernel.Skeleton
import proofs.«114493_j18348100288854_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- k = 0: the accumulator is reset. -/
abbrev isFirstL0 (i : grid0.Coords) : Prop := (Scalar.cmpi .ne (Scalar.extui (Scalar.cmpi .eq (BitVec.ofNat 32 (i 1).val) 0#32)) 0#32) = 1#1
theorem isFirstL0_iff : ∀ t : Fin cfg0.N, isFirstL0 (grid0.coords t) ↔ t.val % 4 = 0 :=
  (by decide +kernel : ∀ t : Fin grid0.N, isFirstL0 (grid0.coords t) ↔ t.val % 4 = 0)

/-- k = 3: the output tile is written. -/
abbrev isLastL0 (i : grid0.Coords) : Prop := k0_cond2 i = 1#1
theorem isLastL0_iff : ∀ t : Fin cfg0.N, isLastL0 (grid0.coords t) ↔ t.val % 4 = 3 :=
  (by decide +kernel : ∀ t : Fin grid0.N, isLastL0 (grid0.coords t) ↔ t.val % 4 = 3)

theorem out_idleL0 : ∀ t : Fin cfg0.N, ¬isLastL0 (grid0.coords t) → cfg0.idle 4 (grid0.coords t) = true := by decide +kernel
theorem out_unflushedL0 : ∀ t : Fin cfg0.N, ¬isLastL0 (grid0.coords t) → (cfg0.win 4).flush t = false := by decide +kernel
theorem out_liveL0 : ∀ t : Fin cfg0.N, isLastL0 (grid0.coords t) → cfg0.idle 4 (grid0.coords t) = false := by decide +kernel
theorem in_liveL0 : ∀ (w : Fin cfg0.W), w ≠ 4 → ∀ i, cfg0.idle w i = false := by
  intro w hw i; fin_cases w <;> first | rfl | exact absurd rfl hw

abbrev stgL0_0 (t : Fin cfg0.N) : Memref sig .tc .vmem S1024x2048 .f32 := win0_0.stage (cfg0.slots t 0)
abbrev stgL0_1 (t : Fin cfg0.N) : Memref sig .tc .vmem S2048x128 .f32 := win0_1.stage (cfg0.slots t 1)
abbrev stgL0_2 (t : Fin cfg0.N) : Memref sig .tc .vmem S128x16 .f32 := win0_2.stage (cfg0.slots t 2)
abbrev stgL0_3 (t : Fin cfg0.N) : Memref sig .tc .vmem S1x16 .f32 := win0_3.stage (cfg0.slots t 3)
abbrev stgL0_4 (t : Fin cfg0.N) : Memref sig .tc .vmem S1024x16 .f32 := win0_4.stage (cfg0.slots t 4)

abbrev accRefL0 : Memref sig .tc .vmem S1024x16 .f32 := Memref.whole cc0_scratch0

abbrev othersL0 (c : Dev nD) : sProp 𝕄 :=
  Pipeline.scopedRestBut (Ix := Unit) (Name := ℕ) (U := UR sig nD τ) (Lvl := ℕ) (Val := Elt F) spec0 c [cc0_scratch0]

theorem restL0_eq (c : Dev nD) :
    (Pipeline.ΦA spec0 c : sProp 𝕄)
      = iprop(iprop((∃ d, owns (c : Thread nD τ) accRefL0 fullShare d) ∗ othersL0 c) ∗ (∃ r, prngReg c r)) := by
  unfold Pipeline.ΦA
  rw [Pipeline.scopedRest_split_of_list spec0 c [cc0_scratch0] (by decide) (by decide)]
  simp only [accRefL0, owns_whole, othersL0, bigSepL]
  try rfl

end Cert.Kernel.Gcn

end
-- ==== Proof.K.L0RunFirst.lean ====
import proofs.«114493_j18348100288854_1_alg».proof.Proof.K.L0Setup

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : isFirstL0 i) (hlast : ¬isLastL0 i) (adj : Vec F S1024x2048 .f32) (feat : Vec F S2048x128 .f32) (wts : Vec F S128x16 .f32) (bias : Vec F S1x16 .f32) :
    { accPieces : List (View.Piece (Elt F) S1024x16 .f32) //
      ∀ (out : Vec F S1024x16 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, fun out E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L0RunMid.lean ====
import proofs.«114493_j18348100288854_1_alg».proof.Proof.K.L0RunFirst

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : ¬isFirstL0 i) (hlast : ¬isLastL0 i) (adj : Vec F S1024x2048 .f32) (feat : Vec F S2048x128 .f32) (wts : Vec F S128x16 .f32) (bias : Vec F S1x16 .f32) (acc : Vec F S1024x16 .f32) :
    { accPieces : List (View.Piece (Elt F) S1024x16 .f32) //
      ∀ (out : Vec F S1024x16 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, fun out E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L0RunLast.lean ====
import proofs.«114493_j18348100288854_1_alg».proof.Proof.K.L0RunMid

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : ¬isFirstL0 i) (hlast : isLastL0 i) (adj : Vec F S1024x2048 .f32) (feat : Vec F S2048x128 .f32) (wts : Vec F S128x16 .f32) (bias : Vec F S1x16 .f32) (acc : Vec F S1024x16 .f32) :
    Σ' (outPieces : List (View.Piece (Elt F) S1024x16 .f32)), { accPieces : List (View.Piece (Elt F) S1024x16 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, ?_, fun E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.Kernel.Gcn

end
-- ==== Proof.K.L0Body.lean ====
import proofs.«114493_j18348100288854_1_alg».proof.Proof.K.L0RunLast
import Idealize.ShloMosaic.Lib.Pipeline.Value

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem originZeroL0 : (![0, 0] : Fin 2 → Nat) = fun _ => 0 := funext fun a => by fin_cases a <;> rfl

section Point

variable (c : Dev nD) (i : grid0.Coords)
  (adjM : Memref sig .tc .vmem S1024x2048 .f32) (hadjM : adjM.IsWhole)
  (featM : Memref sig .tc .vmem S2048x128 .f32) (hfeatM : featM.IsWhole)
  (wM : Memref sig .tc .vmem S128x16 .f32) (hwM : wM.IsWhole)
  (biasM : Memref sig .tc .vmem S1x16 .f32) (hbiasM : biasM.IsWhole)
  (outM : Memref sig .tc .vmem S1024x16 .f32) (houtM : outM.IsWhole)
  (accM : Memref sig .tc .vmem S1024x16 .f32) (haccM : accM.IsWhole)
  (adj : Vec F S1024x2048 .f32) (feat : Vec F S2048x128 .f32) (wts : Vec F S128x16 .f32) (bias : Vec F S1x16 .f32)
  (acc : Vec F S1024x16 .f32)

/-- The stores of a point tile the buffer they go to, so over any contents it reads back as the last store's payload. -/
theorem readFirstL0 (hfirst : isFirstL0 i) (hlast : ¬isLastL0 i) (f) :
    accM.view.read (Elt F) (accM.view.writes (Elt F) f (runFirstL0 c i adjM hadjM featM hfeatM wM hwM biasM hbiasM outM houtM accM haccM hfirst hlast adj feat wts bias).1)
      = k0_pay2 feat wts bias adj (k0_pay1 (F := F)) := by
  refine (View.read_writes_eq_canon _ _ _ (View.cover_of_tiledL _ S1024x16.size (by sl_kernel_rfl))).trans ?_
  unfold runFirstL0
  dsimp only
  sl_unfold_words
  rw [View.canon_cons_unit_zero (S := S1024x16) originZeroL0, View.readCov_unit_zero (S := S1024x16) _ originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readMidL0 (hfirst : ¬isFirstL0 i) (hlast : ¬isLastL0 i) (f) :
    accM.view.read (Elt F) (accM.view.writes (Elt F) f (runMidL0 c i adjM hadjM featM hfeatM wM hwM biasM hbiasM outM houtM accM haccM hfirst hlast adj feat wts bias acc).1)
      = k0_pay2 feat wts bias adj acc := by
  refine (View.read_writes_eq_canon _ _ _ (View.cover_of_tiledL _ S1024x16.size (by sl_kernel_rfl))).trans ?_
  unfold runMidL0
  dsimp only
  sl_unfold_words
  rw [View.canon_unit_zero (S := S1024x16) originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readLastAccL0 (hfirst : ¬isFirstL0 i) (hlast : isLastL0 i) (f) :
    accM.view.read (Elt F) (accM.view.writes (Elt F) f (runLastL0 c i adjM hadjM featM hfeatM wM hwM biasM hbiasM outM houtM accM haccM hfirst hlast adj feat wts bias acc).2.1)
      = k0_pay2 feat wts bias adj acc := by
  refine (View.read_writes_eq_canon _ _ _ (View.cover_of_tiledL _ S1024x16.size (by sl_kernel_rfl))).trans ?_
  unfold runLastL0
  dsimp only
  sl_unfold_words
  rw [View.canon_unit_zero (S := S1024x16) originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readLastOutL0 (hfirst : ¬isFirstL0 i) (hlast : isLastL0 i) (f) :
    outM.view.read (Elt F) (outM.view.writes (Elt F) f (runLastL0 c i adjM hadjM featM hfeatM wM hwM biasM hbiasM outM houtM accM haccM hfirst hlast adj feat wts bias acc).1)
      = k0_pay3 (k0_pay2 feat wts bias adj acc) := by
  refine (View.read_writes_eq_canon _ _ _ (View.cover_of_tiledL _ S1024x16.size (by sl_kernel_rfl))).trans ?_
  unfold runLastL0
  dsimp only
  sl_unfold_words
  rw [View.canon_unit_zero (S := S1024x16) originZeroL0, View.readCov_unit_zero (S := S1024x16) _ originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

end Point

variable (V : (c : Dev nD) → (b : Ref sig .tc) → Buf (Elt F) ((c : Thread nD τ).loc b))

/-- The accumulator after point n: this point's product added to the reset value at k = 0, else to what point n - 1 left. -/
def accL0 (c : Dev nD) : (n : ℕ) → n < cfg0.N → Vec F S1024x16 .f32
  | 0, h => k0_pay2 (tileL0 V c 1 ⟨0, h⟩) (tileL0 V c 2 ⟨0, h⟩) (tileL0 V c 3 ⟨0, h⟩) (tileL0 V c 0 ⟨0, h⟩) k0_pay1
  | n + 1, h => k0_pay2 (tileL0 V c 1 ⟨n + 1, h⟩) (tileL0 V c 2 ⟨n + 1, h⟩) (tileL0 V c 3 ⟨n + 1, h⟩) (tileL0 V c 0 ⟨n + 1, h⟩)
      (if (n + 1) % 4 = 0 then k0_pay1 else accL0 c n (Nat.lt_of_succ_lt h))

/-- After point n: relu of the accumulator (what a last point stores to the output tile), and the accumulator. -/
def accAtL0 (c : Dev nD) (n : ℕ) (h : n < cfg0.N) : Vec F S1024x16 .f32 × Vec F S1024x16 .f32 :=
  (k0_pay3 (accL0 V c n h), accL0 V c n h)

theorem accAtL0_first (c : Dev nD) (t : Fin cfg0.N) (h : t.val % 4 = 0) :
    (accAtL0 V c t.val t.isLt).2 = k0_pay2 (tileL0 V c 1 t) (tileL0 V c 2 t) (tileL0 V c 3 t) (tileL0 V c 0 t) (k0_pay1 (F := F)) := by
  obtain ⟨n, hn⟩ := t
  cases n with
  | zero => rfl
  | succ n => show k0_pay2 _ _ _ _ (if (n + 1) % 4 = 0 then _ else _) = _; rw [if_pos h]

theorem accAtL0_next (c : Dev nD) (t : Fin cfg0.N) (h : ¬ t.val % 4 = 0) :
    (accAtL0 V c t.val t.isLt).2 = k0_pay2 (tileL0 V c 1 t) (tileL0 V c 2 t) (tileL0 V c 3 t) (tileL0 V c 0 t)
      (accAtL0 V c (t.val - 1) (Nat.lt_of_le_of_lt (Nat.sub_le _ _) t.isLt)).2 := by
  obtain ⟨n, hn⟩ := t
  cases n with
  | zero => exact absurd (Nat.zero_mod 4) h
  | succ n => show k0_pay2 _ _ _ _ (if (n + 1) % 4 = 0 then _ else _) = _; rw [if_neg h]; rfl

theorem accAtL0_out (c : Dev nD) (t : Fin cfg0.N) (h : t.val % 4 = 3) :
    (accAtL0 V c t.val t.isLt).1 = k0_pay3 (accAtL0 V c t.val t.isLt).2 := rfl

/-- Before position n: at n = 0 what the launch hands the layer, afterwards the accumulator at what point n - 1 left beside the rest. -/
def phiL0 (c : Dev nD) : (n : ℕ) → n ≤ cfg0.N → sProp 𝕄
  | 0, _ => Pipeline.ΦA spec0 c
  | n + 1, hn => iprop(iprop(owns (c : Thread nD τ) accRefL0 fullShare ((accAtL0 V c n hn).2) ∗ othersL0 c) ∗ (∃ r, prngReg c r))

theorem phiL0_pos (c : Dev nD) (n : ℕ) (h : n ≤ cfg0.N) (hz : n ≠ 0) :
    phiL0 V c n h = iprop(iprop(owns (c : Thread nD τ) accRefL0 fullShare ((accAtL0 V c (n - 1) (by omega)).2) ∗ othersL0 c) ∗ (∃ r, prngReg c r)) := by
  cases n with
  | zero => exact absurd rfl hz
  | succ n => rfl

/-- At every position the invariant holds the accumulator at some contents. -/
theorem phiL0_acc (c : Dev nD) (n : ℕ) (h : n ≤ cfg0.N) :
    phiL0 V c n h ⊢ iprop(iprop((∃ d, owns (c : Thread nD τ) accRefL0 fullShare d) ∗ othersL0 c) ∗ (∃ r, prngReg c r)) := by
  cases n with
  | zero =>
    show Pipeline.ΦA spec0 c ⊢ _
    rw [restL0_eq]
    try exact .rfl
  | succ n =>
    show iprop(iprop(owns (c : Thread nD τ) accRefL0 fullShare ((accAtL0 V c n h).2) ∗ othersL0 c) ∗ (∃ r, prngReg c r)) ⊢ _
    iintro ⟨⟨Hacc, Hoth⟩, Hg⟩
    isplitl [Hacc Hoth]
    · isplitl [Hacc]; · iexists _; iexact Hacc
      iexact Hoth
    iexact Hg

def datL0 (c : Dev nD) : Dat τ (Elt F) Unit ℕ (UR sig nD τ) ℕ cfg0 c where
  A w := V c (Pipeline.arrRef spec0 w)
  after w t := match w with
    | ⟨0, _⟩ => tileL0 V c 0 t
    | ⟨1, _⟩ => tileL0 V c 1 t
    | ⟨2, _⟩ => tileL0 V c 2 t
    | ⟨3, _⟩ => tileL0 V c 3 t
    | ⟨4, _⟩ => (accAtL0 V c t.val t.isLt).1
  Φ t := phiL0 V c t.val (Nat.le_of_lt_succ t.isLt)
  q _ := fullShare
  owed _ := 0

theorem datL0_A (c : Dev nD) (w : Fin cfg0.W) : (datL0 V c).A w = V c (Pipeline.arrRef spec0 w) := by dsimp only [datL0]
theorem datL0_after_4 (c : Dev nD) (t : Fin cfg0.N) : (datL0 V c).after 4 t = (accAtL0 V c t.val t.isLt).1 := by dsimp only [datL0]
theorem datL0_q (c : Dev nD) (w : Fin cfg0.W) : (datL0 V c).q w = fullShare := rfl
theorem datL0_owed (c : Dev nD) (t : Fin (cfg0.N + 1)) : (datL0 V c).owed t = 0 := rfl

theorem datL0_phi_begin (c : Dev nD) (t : Fin cfg0.N) :
    (datL0 V c).Φ t.castSucc = phiL0 V c t.val (Nat.le_of_lt t.isLt) := by
  dsimp only [datL0]; simp only [Fin.coe_castSucc]

theorem datL0_before_0 (c : Dev nD) (t : Fin cfg0.N) (d) : (datL0 V c).before 0 t d = tileL0 V c 0 t :=
  ((datL0 V c).before_in_eq_fetched 0 rfl (fun _ => rfl) (fun _ _ _ => rfl) (fun _ => rfl) t d).trans rfl
theorem datL0_before_1 (c : Dev nD) (t : Fin cfg0.N) (d) : (datL0 V c).before 1 t d = tileL0 V c 1 t :=
  ((datL0 V c).before_in_eq_fetched 1 rfl (fun _ => rfl) (fun _ _ _ => rfl) (fun _ => rfl) t d).trans rfl
theorem datL0_before_2 (c : Dev nD) (t : Fin cfg0.N) (d) : (datL0 V c).before 2 t d = tileL0 V c 2 t :=
  ((datL0 V c).before_in_eq_fetched 2 rfl (fun _ => rfl) (fun _ _ _ => rfl) (fun _ => rfl) t d).trans rfl
theorem datL0_before_3 (c : Dev nD) (t : Fin cfg0.N) (d) : (datL0 V c).before 3 t d = tileL0 V c 3 t :=
  ((datL0 V c).before_in_eq_fetched 3 rfl (fun _ => rfl) (fun _ _ _ => rfl) (fun _ => rfl) t d).trans rfl

theorem datL0_leaves_0 (c : Dev nD) (t : Fin cfg0.N) :
    (datL0 V c).leavesExact 0 t = owns (c : Thread nD τ) (stgL0_0 t) fullShare (tileL0 V c 0 t) := by
  unfold Dat.leavesExact; rw [in_liveL0 0 (by decide) _]; rfl
theorem datL0_leaves_1 (c : Dev nD) (t : Fin cfg0.N) :
    (datL0 V c).leavesExact 1 t = owns (c : Thread nD τ) (stgL0_1 t) fullShare (tileL0 V c 1 t) := by
  unfold Dat.leavesExact; rw [in_liveL0 1 (by decide) _]; rfl
theorem datL0_leaves_2 (c : Dev nD) (t : Fin cfg0.N) :
    (datL0 V c).leavesExact 2 t = owns (c : Thread nD τ) (stgL0_2 t) fullShare (tileL0 V c 2 t) := by
  unfold Dat.leavesExact; rw [in_liveL0 2 (by decide) _]; rfl
theorem datL0_leaves_3 (c : Dev nD) (t : Fin cfg0.N) :
    (datL0 V c).leavesExact 3 t = owns (c : Thread nD τ) (stgL0_3 t) fullShare (tileL0 V c 3 t) := by
  unfold Dat.leavesExact; rw [in_liveL0 3 (by decide) _]; rfl

def bodyPreL0 (c : Dev nD) (t : Fin cfg0.N) : sProp 𝕄 :=
  iprop((datL0 V c).Φ t.castSucc ∗ (datL0 V c).owesAt () t.castSucc
    ∗ (∃ d, owns (c : Thread nD τ) (stgL0_0 t) fullShare ((datL0 V c).before 0 t d))
    ∗ (∃ d, owns (c : Thread nD τ) (stgL0_1 t) fullShare ((datL0 V c).before 1 t d))
    ∗ (∃ d, owns (c : Thread nD τ) (stgL0_2 t) fullShare ((datL0 V c).before 2 t d))
    ∗ (∃ d, owns (c : Thread nD τ) (stgL0_3 t) fullShare ((datL0 V c).before 3 t d))
    ∗ (∃ d, owns (c : Thread nD τ) (stgL0_4 t) fullShare ((datL0 V c).before 4 t d)))

def bodyPostL0 (c : Dev nD) (t : Fin cfg0.N) : sProp 𝕄 :=
  iprop((datL0 V c).Φ t.succ ∗ (datL0 V c).owesAt () t.succ
    ∗ (datL0 V c).leavesExact 0 t ∗ (datL0 V c).leavesExact 1 t ∗ (datL0 V c).leavesExact 2 t
    ∗ (datL0 V c).leavesExact 3 t ∗ (datL0 V c).leavesExact 4 t)

set_option maxHeartbeats 4800000 in
/-- The body at any point: t mod 4 says which kind of point it is; the invariant hands the accumulator over and takes it
    back at this point's contents, and the output tile goes back untouched except at a last point. -/
theorem bodyL0 (c : Dev nD) (t : Fin cfg0.N) :
    bodyPreL0 V c t ⊢ wp frame (wpE (defs₀ (F := F)) Variants.none c none) Set.univ (bodyAt0 t) (fun _ => bodyPostL0 V c t) := by
  unfold bodyPreL0 bodyPostL0 bodyAt0
  simp only [datL0_before_0, datL0_before_1, datL0_before_2, datL0_before_3]
  rw [show (datL0 V c).owesAt () t.succ = (datL0 V c).owesAt () t.castSucc from rfl]
  rw [show (datL0 V c).Φ t.succ = iprop(iprop(owns (c : Thread nD τ) accRefL0 fullShare ((accAtL0 V c t.val t.isLt).2) ∗ othersL0 c) ∗ (∃ r, prngReg c r)) from rfl]
  rw [datL0_leaves_0, datL0_leaves_1, datL0_leaves_2, datL0_leaves_3, datL0_phi_begin V c t]
  have hN : t.val < 32 := lt_of_lt_of_eq t.isLt (show cfg0.N = 32 from N_0)
  by_cases h0 : t.val % 4 = 0
  · have hf : isFirstL0 (grid0.coords t) := (isFirstL0_iff t).mpr h0
    have hnl : ¬isLastL0 (grid0.coords t) := fun h => absurd ((isLastL0_iff t).mp h) (by omega)
    rw [Dat.leavesExact_idle (datL0 V c) 4 t (out_idleL0 t hnl) (out_unflushedL0 t hnl), accAtL0_first V c t h0]
    iintro ⟨Hphi, Ho, ⟨%d0, H0⟩, ⟨%d1, H1⟩, ⟨%d2, H2⟩, ⟨%d3, H3⟩, ⟨%d4, H4⟩⟩
    ihave Hparts := (phiL0_acc V c _ _) $$ Hphi
    icases Hparts with ⟨⟨Hacc, Hoth⟩, Hg⟩
    iapply ((runFirstL0 c (grid0.coords t) _ _ _ _ _ _ _ _ _ _ _ _ hf hnl (tileL0 V c 0 t) (tileL0 V c 1 t) (tileL0 V c 2 t) (tileL0 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL0 ..
    iexists _; iexact H4
  · have hnf : ¬isFirstL0 (grid0.coords t) := fun h => h0 ((isFirstL0_iff t).mp h)
    have hz : t.val ≠ 0 := fun h => h0 (by rw [h])
    rw [phiL0_pos V c _ _ hz, accAtL0_next V c t h0]
    by_cases h3 : t.val % 4 = 3
    · have hl : isLastL0 (grid0.coords t) := (isLastL0_iff t).mpr h3
      rw [show (datL0 V c).leavesExact 4 t = owns (c : Thread nD τ) (stgL0_4 t) fullShare ((datL0 V c).after 4 t) from by
        unfold Dat.leavesExact; rw [out_liveL0 t hl], datL0_after_4, accAtL0_out V c t h3, accAtL0_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL0 c (grid0.coords t) _ _ _ _ _ _ _ _ _ _ _ _ hnf hl (tileL0 V c 0 t) (tileL0 V c 1 t) (tileL0 V c 2 t) (tileL0 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL0 ..
      unfold owns; iexists _; isplitr
      swap; · iexact H4
      ipureintro; exact readLastOutL0 ..
    · have hnl : ¬isLastL0 (grid0.coords t) := fun h => h3 ((isLastL0_iff t).mp h)
      rw [Dat.leavesExact_idle (datL0 V c) 4 t (out_idleL0 t hnl) (out_unflushedL0 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL0 c (grid0.coords t) _ _ _ _ _ _ _ _ _ _ _ _ hnf hnl (tileL0 V c 0 t) (tileL0 V c 1 t) (tileL0 V c 2 t) (tileL0 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL0 ..
      iexists _; iexact H4

theorem body_obligationL0 (c : Dev nD) : BodyObligation (datL0 (F := F) V c) (defs₀ (F := F)) Variants.none () Set.univ := fun t => by
  rw [bigSep_W0, bigSep_W0]
  exact bodyL0 V c t

theorem phiL0_in (c : Dev nD) : Pipeline.ΦA spec0 c ⊢ (datL0 V c).Φ 0 := by
  show _ ⊢ phiL0 V c 0 (Nat.zero_le _)
  exact .rfl

/-- After the last point the invariant gives back what the launch handed over, the accumulator's contents forgotten. -/
theorem phiL0_out (c : Dev nD) : (datL0 V c).Φ (Fin.last cfg0.N) ⊢ Pipeline.ΦA spec0 c := by
  rw [restL0_eq]
  exact phiL0_acc V c cfg0.N (Nat.le_refl _)

end Cert.Kernel.Gcn

end
-- ==== Proof.K.L1Setup.lean ====
import proofs.«114493_j18348100288854_1_alg».proof.Proof.Gen.Kernel.Launch
import proofs.«114493_j18348100288854_1_alg».proof.Proof.Gen.Kernel.Skeleton
import proofs.«114493_j18348100288854_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- k = 0: the accumulator is reset. -/
abbrev isFirstL1 (i : grid1.Coords) : Prop := (Scalar.cmpi .ne (Scalar.extui (Scalar.cmpi .eq (BitVec.ofNat 32 (i 1).val) 0#32)) 0#32) = 1#1
theorem isFirstL1_iff : ∀ t : Fin cfg1.N, isFirstL1 (grid1.coords t) ↔ t.val % 4 = 0 :=
  (by decide +kernel : ∀ t : Fin grid1.N, isFirstL1 (grid1.coords t) ↔ t.val % 4 = 0)

/-- k = 3: the output tile is written. -/
abbrev isLastL1 (i : grid1.Coords) : Prop := k1_cond2 i = 1#1
theorem isLastL1_iff : ∀ t : Fin cfg1.N, isLastL1 (grid1.coords t) ↔ t.val % 4 = 3 :=
  (by decide +kernel : ∀ t : Fin grid1.N, isLastL1 (grid1.coords t) ↔ t.val % 4 = 3)

theorem out_idleL1 : ∀ t : Fin cfg1.N, ¬isLastL1 (grid1.coords t) → cfg1.idle 4 (grid1.coords t) = true := by decide +kernel
theorem out_unflushedL1 : ∀ t : Fin cfg1.N, ¬isLastL1 (grid1.coords t) → (cfg1.win 4).flush t = false := by decide +kernel
theorem out_liveL1 : ∀ t : Fin cfg1.N, isLastL1 (grid1.coords t) → cfg1.idle 4 (grid1.coords t) = false := by decide +kernel
theorem in_liveL1 : ∀ (w : Fin cfg1.W), w ≠ 4 → ∀ i, cfg1.idle w i = false := by
  intro w hw i; fin_cases w <;> first | rfl | exact absurd rfl hw

abbrev stgL1_0 (t : Fin cfg1.N) : Memref sig .tc .vmem S1024x2048 .f32 := win1_0.stage (cfg1.slots t 0)
abbrev stgL1_1 (t : Fin cfg1.N) : Memref sig .tc .vmem S2048x16 .f32 := win1_1.stage (cfg1.slots t 1)
abbrev stgL1_2 (t : Fin cfg1.N) : Memref sig .tc .vmem S16x32 .f32 := win1_2.stage (cfg1.slots t 2)
abbrev stgL1_3 (t : Fin cfg1.N) : Memref sig .tc .vmem S1x32 .f32 := win1_3.stage (cfg1.slots t 3)
abbrev stgL1_4 (t : Fin cfg1.N) : Memref sig .tc .vmem S1024x32 .f32 := win1_4.stage (cfg1.slots t 4)

abbrev accRefL1 : Memref sig .tc .vmem S1024x32 .f32 := Memref.whole cc1_scratch0

abbrev othersL1 (c : Dev nD) : sProp 𝕄 :=
  Pipeline.scopedRestBut (Ix := Unit) (Name := ℕ) (U := UR sig nD τ) (Lvl := ℕ) (Val := Elt F) spec1 c [cc1_scratch0]

theorem restL1_eq (c : Dev nD) :
    (Pipeline.ΦA spec1 c : sProp 𝕄)
      = iprop(iprop((∃ d, owns (c : Thread nD τ) accRefL1 fullShare d) ∗ othersL1 c) ∗ (∃ r, prngReg c r)) := by
  unfold Pipeline.ΦA
  rw [Pipeline.scopedRest_split_of_list spec1 c [cc1_scratch0] (by decide) (by decide)]
  simp only [accRefL1, owns_whole, othersL1, bigSepL]
  try rfl

end Cert.Kernel.Gcn

end
-- ==== Proof.K.L1RunFirst.lean ====
import proofs.«114493_j18348100288854_1_alg».proof.Proof.K.L1Setup

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : isFirstL1 i) (hlast : ¬isLastL1 i) (adj : Vec F S1024x2048 .f32) (feat : Vec F S2048x16 .f32) (wts : Vec F S16x32 .f32) (bias : Vec F S1x32 .f32) :
    { accPieces : List (View.Piece (Elt F) S1024x32 .f32) //
      ∀ (out : Vec F S1024x32 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, fun out E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L1RunMid.lean ====
import proofs.«114493_j18348100288854_1_alg».proof.Proof.K.L1RunFirst

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : ¬isFirstL1 i) (hlast : ¬isLastL1 i) (adj : Vec F S1024x2048 .f32) (feat : Vec F S2048x16 .f32) (wts : Vec F S16x32 .f32) (bias : Vec F S1x32 .f32) (acc : Vec F S1024x32 .f32) :
    { accPieces : List (View.Piece (Elt F) S1024x32 .f32) //
      ∀ (out : Vec F S1024x32 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, fun out E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L1RunLast.lean ====
import proofs.«114493_j18348100288854_1_alg».proof.Proof.K.L1RunMid

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : ¬isFirstL1 i) (hlast : isLastL1 i) (adj : Vec F S1024x2048 .f32) (feat : Vec F S2048x16 .f32) (wts : Vec F S16x32 .f32) (bias : Vec F S1x32 .f32) (acc : Vec F S1024x32 .f32) :
    Σ' (outPieces : List (View.Piece (Elt F) S1024x32 .f32)), { accPieces : List (View.Piece (Elt F) S1024x32 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, ?_, fun E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.Kernel.Gcn

end
-- ==== Proof.K.L1Body.lean ====
import proofs.«114493_j18348100288854_1_alg».proof.Proof.K.L1RunLast
import Idealize.ShloMosaic.Lib.Pipeline.Value

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem originZeroL1 : (![0, 0] : Fin 2 → Nat) = fun _ => 0 := funext fun a => by fin_cases a <;> rfl

section Point

variable (c : Dev nD) (i : grid1.Coords)
  (adjM : Memref sig .tc .vmem S1024x2048 .f32) (hadjM : adjM.IsWhole)
  (featM : Memref sig .tc .vmem S2048x16 .f32) (hfeatM : featM.IsWhole)
  (wM : Memref sig .tc .vmem S16x32 .f32) (hwM : wM.IsWhole)
  (biasM : Memref sig .tc .vmem S1x32 .f32) (hbiasM : biasM.IsWhole)
  (outM : Memref sig .tc .vmem S1024x32 .f32) (houtM : outM.IsWhole)
  (accM : Memref sig .tc .vmem S1024x32 .f32) (haccM : accM.IsWhole)
  (adj : Vec F S1024x2048 .f32) (feat : Vec F S2048x16 .f32) (wts : Vec F S16x32 .f32) (bias : Vec F S1x32 .f32)
  (acc : Vec F S1024x32 .f32)

/-- The stores of a point tile the buffer they go to, so over any contents it reads back as the last store's payload. -/
theorem readFirstL1 (hfirst : isFirstL1 i) (hlast : ¬isLastL1 i) (f) :
    accM.view.read (Elt F) (accM.view.writes (Elt F) f (runFirstL1 c i adjM hadjM featM hfeatM wM hwM biasM hbiasM outM houtM accM haccM hfirst hlast adj feat wts bias).1)
      = k1_pay2 feat wts bias adj (k1_pay1 (F := F)) := by
  refine (View.read_writes_eq_canon _ _ _ (View.cover_of_tiledL _ S1024x32.size (by sl_kernel_rfl))).trans ?_
  unfold runFirstL1
  dsimp only
  sl_unfold_words
  rw [View.canon_cons_unit_zero (S := S1024x32) originZeroL1, View.readCov_unit_zero (S := S1024x32) _ originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readMidL1 (hfirst : ¬isFirstL1 i) (hlast : ¬isLastL1 i) (f) :
    accM.view.read (Elt F) (accM.view.writes (Elt F) f (runMidL1 c i adjM hadjM featM hfeatM wM hwM biasM hbiasM outM houtM accM haccM hfirst hlast adj feat wts bias acc).1)
      = k1_pay2 feat wts bias adj acc := by
  refine (View.read_writes_eq_canon _ _ _ (View.cover_of_tiledL _ S1024x32.size (by sl_kernel_rfl))).trans ?_
  unfold runMidL1
  dsimp only
  sl_unfold_words
  rw [View.canon_unit_zero (S := S1024x32) originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readLastAccL1 (hfirst : ¬isFirstL1 i) (hlast : isLastL1 i) (f) :
    accM.view.read (Elt F) (accM.view.writes (Elt F) f (runLastL1 c i adjM hadjM featM hfeatM wM hwM biasM hbiasM outM houtM accM haccM hfirst hlast adj feat wts bias acc).2.1)
      = k1_pay2 feat wts bias adj acc := by
  refine (View.read_writes_eq_canon _ _ _ (View.cover_of_tiledL _ S1024x32.size (by sl_kernel_rfl))).trans ?_
  unfold runLastL1
  dsimp only
  sl_unfold_words
  rw [View.canon_unit_zero (S := S1024x32) originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readLastOutL1 (hfirst : ¬isFirstL1 i) (hlast : isLastL1 i) (f) :
    outM.view.read (Elt F) (outM.view.writes (Elt F) f (runLastL1 c i adjM hadjM featM hfeatM wM hwM biasM hbiasM outM houtM accM haccM hfirst hlast adj feat wts bias acc).1)
      = k1_pay3 (k1_pay2 feat wts bias adj acc) := by
  refine (View.read_writes_eq_canon _ _ _ (View.cover_of_tiledL _ S1024x32.size (by sl_kernel_rfl))).trans ?_
  unfold runLastL1
  dsimp only
  sl_unfold_words
  rw [View.canon_unit_zero (S := S1024x32) originZeroL1, View.readCov_unit_zero (S := S1024x32) _ originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

end Point

variable (V : (c : Dev nD) → (b : Ref sig .tc) → Buf (Elt F) ((c : Thread nD τ).loc b))

/-- The accumulator after point n: this point's product added to the reset value at k = 0, else to what point n - 1 left. -/
def accL1 (c : Dev nD) : (n : ℕ) → n < cfg1.N → Vec F S1024x32 .f32
  | 0, h => k1_pay2 (tileL1 V c 1 ⟨0, h⟩) (tileL1 V c 2 ⟨0, h⟩) (tileL1 V c 3 ⟨0, h⟩) (tileL1 V c 0 ⟨0, h⟩) k1_pay1
  | n + 1, h => k1_pay2 (tileL1 V c 1 ⟨n + 1, h⟩) (tileL1 V c 2 ⟨n + 1, h⟩) (tileL1 V c 3 ⟨n + 1, h⟩) (tileL1 V c 0 ⟨n + 1, h⟩)
      (if (n + 1) % 4 = 0 then k1_pay1 else accL1 c n (Nat.lt_of_succ_lt h))

/-- After point n: relu of the accumulator (what a last point stores to the output tile), and the accumulator. -/
def accAtL1 (c : Dev nD) (n : ℕ) (h : n < cfg1.N) : Vec F S1024x32 .f32 × Vec F S1024x32 .f32 :=
  (k1_pay3 (accL1 V c n h), accL1 V c n h)

theorem accAtL1_first (c : Dev nD) (t : Fin cfg1.N) (h : t.val % 4 = 0) :
    (accAtL1 V c t.val t.isLt).2 = k1_pay2 (tileL1 V c 1 t) (tileL1 V c 2 t) (tileL1 V c 3 t) (tileL1 V c 0 t) (k1_pay1 (F := F)) := by
  obtain ⟨n, hn⟩ := t
  cases n with
  | zero => rfl
  | succ n => show k1_pay2 _ _ _ _ (if (n + 1) % 4 = 0 then _ else _) = _; rw [if_pos h]

theorem accAtL1_next (c : Dev nD) (t : Fin cfg1.N) (h : ¬ t.val % 4 = 0) :
    (accAtL1 V c t.val t.isLt).2 = k1_pay2 (tileL1 V c 1 t) (tileL1 V c 2 t) (tileL1 V c 3 t) (tileL1 V c 0 t)
      (accAtL1 V c (t.val - 1) (Nat.lt_of_le_of_lt (Nat.sub_le _ _) t.isLt)).2 := by
  obtain ⟨n, hn⟩ := t
  cases n with
  | zero => exact absurd (Nat.zero_mod 4) h
  | succ n => show k1_pay2 _ _ _ _ (if (n + 1) % 4 = 0 then _ else _) = _; rw [if_neg h]; rfl

theorem accAtL1_out (c : Dev nD) (t : Fin cfg1.N) (h : t.val % 4 = 3) :
    (accAtL1 V c t.val t.isLt).1 = k1_pay3 (accAtL1 V c t.val t.isLt).2 := rfl

/-- Before position n: at n = 0 what the launch hands the layer, afterwards the accumulator at what point n - 1 left beside the rest. -/
def phiL1 (c : Dev nD) : (n : ℕ) → n ≤ cfg1.N → sProp 𝕄
  | 0, _ => Pipeline.ΦA spec1 c
  | n + 1, hn => iprop(iprop(owns (c : Thread nD τ) accRefL1 fullShare ((accAtL1 V c n hn).2) ∗ othersL1 c) ∗ (∃ r, prngReg c r))

theorem phiL1_pos (c : Dev nD) (n : ℕ) (h : n ≤ cfg1.N) (hz : n ≠ 0) :
    phiL1 V c n h = iprop(iprop(owns (c : Thread nD τ) accRefL1 fullShare ((accAtL1 V c (n - 1) (by omega)).2) ∗ othersL1 c) ∗ (∃ r, prngReg c r)) := by
  cases n with
  | zero => exact absurd rfl hz
  | succ n => rfl

/-- At every position the invariant holds the accumulator at some contents. -/
theorem phiL1_acc (c : Dev nD) (n : ℕ) (h : n ≤ cfg1.N) :
    phiL1 V c n h ⊢ iprop(iprop((∃ d, owns (c : Thread nD τ) accRefL1 fullShare d) ∗ othersL1 c) ∗ (∃ r, prngReg c r)) := by
  cases n with
  | zero =>
    show Pipeline.ΦA spec1 c ⊢ _
    rw [restL1_eq]
    try exact .rfl
  | succ n =>
    show iprop(iprop(owns (c : Thread nD τ) accRefL1 fullShare ((accAtL1 V c n h).2) ∗ othersL1 c) ∗ (∃ r, prngReg c r)) ⊢ _
    iintro ⟨⟨Hacc, Hoth⟩, Hg⟩
    isplitl [Hacc Hoth]
    · isplitl [Hacc]; · iexists _; iexact Hacc
      iexact Hoth
    iexact Hg

def datL1 (c : Dev nD) : Dat τ (Elt F) Unit ℕ (UR sig nD τ) ℕ cfg1 c where
  A w := V c (Pipeline.arrRef spec1 w)
  after w t := match w with
    | ⟨0, _⟩ => tileL1 V c 0 t
    | ⟨1, _⟩ => tileL1 V c 1 t
    | ⟨2, _⟩ => tileL1 V c 2 t
    | ⟨3, _⟩ => tileL1 V c 3 t
    | ⟨4, _⟩ => (accAtL1 V c t.val t.isLt).1
  Φ t := phiL1 V c t.val (Nat.le_of_lt_succ t.isLt)
  q _ := fullShare
  owed _ := 0

theorem datL1_A (c : Dev nD) (w : Fin cfg1.W) : (datL1 V c).A w = V c (Pipeline.arrRef spec1 w) := by dsimp only [datL1]
theorem datL1_after_4 (c : Dev nD) (t : Fin cfg1.N) : (datL1 V c).after 4 t = (accAtL1 V c t.val t.isLt).1 := by dsimp only [datL1]
theorem datL1_q (c : Dev nD) (w : Fin cfg1.W) : (datL1 V c).q w = fullShare := rfl
theorem datL1_owed (c : Dev nD) (t : Fin (cfg1.N + 1)) : (datL1 V c).owed t = 0 := rfl

theorem datL1_phi_begin (c : Dev nD) (t : Fin cfg1.N) :
    (datL1 V c).Φ t.castSucc = phiL1 V c t.val (Nat.le_of_lt t.isLt) := by
  dsimp only [datL1]; simp only [Fin.coe_castSucc]

theorem datL1_before_0 (c : Dev nD) (t : Fin cfg1.N) (d) : (datL1 V c).before 0 t d = tileL1 V c 0 t :=
  ((datL1 V c).before_in_eq_fetched 0 rfl (fun _ => rfl) (fun _ _ _ => rfl) (fun _ => rfl) t d).trans rfl
theorem datL1_before_1 (c : Dev nD) (t : Fin cfg1.N) (d) : (datL1 V c).before 1 t d = tileL1 V c 1 t :=
  ((datL1 V c).before_in_eq_fetched 1 rfl (fun _ => rfl) (fun _ _ _ => rfl) (fun _ => rfl) t d).trans rfl
theorem datL1_before_2 (c : Dev nD) (t : Fin cfg1.N) (d) : (datL1 V c).before 2 t d = tileL1 V c 2 t :=
  ((datL1 V c).before_in_eq_fetched 2 rfl (fun _ => rfl) (fun _ _ _ => rfl) (fun _ => rfl) t d).trans rfl
theorem datL1_before_3 (c : Dev nD) (t : Fin cfg1.N) (d) : (datL1 V c).before 3 t d = tileL1 V c 3 t :=
  ((datL1 V c).before_in_eq_fetched 3 rfl (fun _ => rfl) (fun _ _ _ => rfl) (fun _ => rfl) t d).trans rfl

theorem datL1_leaves_0 (c : Dev nD) (t : Fin cfg1.N) :
    (datL1 V c).leavesExact 0 t = owns (c : Thread nD τ) (stgL1_0 t) fullShare (tileL1 V c 0 t) := by
  unfold Dat.leavesExact; rw [in_liveL1 0 (by decide) _]; rfl
theorem datL1_leaves_1 (c : Dev nD) (t : Fin cfg1.N) :
    (datL1 V c).leavesExact 1 t = owns (c : Thread nD τ) (stgL1_1 t) fullShare (tileL1 V c 1 t) := by
  unfold Dat.leavesExact; rw [in_liveL1 1 (by decide) _]; rfl
theorem datL1_leaves_2 (c : Dev nD) (t : Fin cfg1.N) :
    (datL1 V c).leavesExact 2 t = owns (c : Thread nD τ) (stgL1_2 t) fullShare (tileL1 V c 2 t) := by
  unfold Dat.leavesExact; rw [in_liveL1 2 (by decide) _]; rfl
theorem datL1_leaves_3 (c : Dev nD) (t : Fin cfg1.N) :
    (datL1 V c).leavesExact 3 t = owns (c : Thread nD τ) (stgL1_3 t) fullShare (tileL1 V c 3 t) := by
  unfold Dat.leavesExact; rw [in_liveL1 3 (by decide) _]; rfl

def bodyPreL1 (c : Dev nD) (t : Fin cfg1.N) : sProp 𝕄 :=
  iprop((datL1 V c).Φ t.castSucc ∗ (datL1 V c).owesAt () t.castSucc
    ∗ (∃ d, owns (c : Thread nD τ) (stgL1_0 t) fullShare ((datL1 V c).before 0 t d))
    ∗ (∃ d, owns (c : Thread nD τ) (stgL1_1 t) fullShare ((datL1 V c).before 1 t d))
    ∗ (∃ d, owns (c : Thread nD τ) (stgL1_2 t) fullShare ((datL1 V c).before 2 t d))
    ∗ (∃ d, owns (c : Thread nD τ) (stgL1_3 t) fullShare ((datL1 V c).before 3 t d))
    ∗ (∃ d, owns (c : Thread nD τ) (stgL1_4 t) fullShare ((datL1 V c).before 4 t d)))

def bodyPostL1 (c : Dev nD) (t : Fin cfg1.N) : sProp 𝕄 :=
  iprop((datL1 V c).Φ t.succ ∗ (datL1 V c).owesAt () t.succ
    ∗ (datL1 V c).leavesExact 0 t ∗ (datL1 V c).leavesExact 1 t ∗ (datL1 V c).leavesExact 2 t
    ∗ (datL1 V c).leavesExact 3 t ∗ (datL1 V c).leavesExact 4 t)

set_option maxHeartbeats 4800000 in
/-- The body at any point: t mod 4 says which kind of point it is; the invariant hands the accumulator over and takes it
    back at this point's contents, and the output tile goes back untouched except at a last point. -/
theorem bodyL1 (c : Dev nD) (t : Fin cfg1.N) :
    bodyPreL1 V c t ⊢ wp frame (wpE (defs₀ (F := F)) Variants.none c none) Set.univ (bodyAt1 t) (fun _ => bodyPostL1 V c t) := by
  unfold bodyPreL1 bodyPostL1 bodyAt1
  simp only [datL1_before_0, datL1_before_1, datL1_before_2, datL1_before_3]
  rw [show (datL1 V c).owesAt () t.succ = (datL1 V c).owesAt () t.castSucc from rfl]
  rw [show (datL1 V c).Φ t.succ = iprop(iprop(owns (c : Thread nD τ) accRefL1 fullShare ((accAtL1 V c t.val t.isLt).2) ∗ othersL1 c) ∗ (∃ r, prngReg c r)) from rfl]
  rw [datL1_leaves_0, datL1_leaves_1, datL1_leaves_2, datL1_leaves_3, datL1_phi_begin V c t]
  have hN : t.val < 32 := lt_of_lt_of_eq t.isLt (show cfg1.N = 32 from N_1)
  by_cases h0 : t.val % 4 = 0
  · have hf : isFirstL1 (grid1.coords t) := (isFirstL1_iff t).mpr h0
    have hnl : ¬isLastL1 (grid1.coords t) := fun h => absurd ((isLastL1_iff t).mp h) (by omega)
    rw [Dat.leavesExact_idle (datL1 V c) 4 t (out_idleL1 t hnl) (out_unflushedL1 t hnl), accAtL1_first V c t h0]
    iintro ⟨Hphi, Ho, ⟨%d0, H0⟩, ⟨%d1, H1⟩, ⟨%d2, H2⟩, ⟨%d3, H3⟩, ⟨%d4, H4⟩⟩
    ihave Hparts := (phiL1_acc V c _ _) $$ Hphi
    icases Hparts with ⟨⟨Hacc, Hoth⟩, Hg⟩
    iapply ((runFirstL1 c (grid1.coords t) _ _ _ _ _ _ _ _ _ _ _ _ hf hnl (tileL1 V c 0 t) (tileL1 V c 1 t) (tileL1 V c 2 t) (tileL1 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL1 ..
    iexists _; iexact H4
  · have hnf : ¬isFirstL1 (grid1.coords t) := fun h => h0 ((isFirstL1_iff t).mp h)
    have hz : t.val ≠ 0 := fun h => h0 (by rw [h])
    rw [phiL1_pos V c _ _ hz, accAtL1_next V c t h0]
    by_cases h3 : t.val % 4 = 3
    · have hl : isLastL1 (grid1.coords t) := (isLastL1_iff t).mpr h3
      rw [show (datL1 V c).leavesExact 4 t = owns (c : Thread nD τ) (stgL1_4 t) fullShare ((datL1 V c).after 4 t) from by
        unfold Dat.leavesExact; rw [out_liveL1 t hl], datL1_after_4, accAtL1_out V c t h3, accAtL1_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL1 c (grid1.coords t) _ _ _ _ _ _ _ _ _ _ _ _ hnf hl (tileL1 V c 0 t) (tileL1 V c 1 t) (tileL1 V c 2 t) (tileL1 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL1 ..
      unfold owns; iexists _; isplitr
      swap; · iexact H4
      ipureintro; exact readLastOutL1 ..
    · have hnl : ¬isLastL1 (grid1.coords t) := fun h => h3 ((isLastL1_iff t).mp h)
      rw [Dat.leavesExact_idle (datL1 V c) 4 t (out_idleL1 t hnl) (out_unflushedL1 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL1 c (grid1.coords t) _ _ _ _ _ _ _ _ _ _ _ _ hnf hnl (tileL1 V c 0 t) (tileL1 V c 1 t) (tileL1 V c 2 t) (tileL1 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL1 ..
      iexists _; iexact H4

theorem body_obligationL1 (c : Dev nD) : BodyObligation (datL1 (F := F) V c) (defs₀ (F := F)) Variants.none () Set.univ := fun t => by
  rw [bigSep_W1, bigSep_W1]
  exact bodyL1 V c t

theorem phiL1_in (c : Dev nD) : Pipeline.ΦA spec1 c ⊢ (datL1 V c).Φ 0 := by
  show _ ⊢ phiL1 V c 0 (Nat.zero_le _)
  exact .rfl

/-- After the last point the invariant gives back what the launch handed over, the accumulator's contents forgotten. -/
theorem phiL1_out (c : Dev nD) : (datL1 V c).Φ (Fin.last cfg1.N) ⊢ Pipeline.ΦA spec1 c := by
  rw [restL1_eq]
  exact phiL1_acc V c cfg1.N (Nat.le_refl _)

end Cert.Kernel.Gcn

end
-- ==== Proof.K.L2Setup.lean ====
import proofs.«114493_j18348100288854_1_alg».proof.Proof.Gen.Kernel.Launch
import proofs.«114493_j18348100288854_1_alg».proof.Proof.Gen.Kernel.Skeleton
import proofs.«114493_j18348100288854_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- k = 0: the accumulator is reset. -/
abbrev isFirstL2 (i : grid2.Coords) : Prop := (Scalar.cmpi .ne (Scalar.extui (Scalar.cmpi .eq (BitVec.ofNat 32 (i 1).val) 0#32)) 0#32) = 1#1
theorem isFirstL2_iff : ∀ t : Fin cfg2.N, isFirstL2 (grid2.coords t) ↔ t.val % 4 = 0 :=
  (by decide +kernel : ∀ t : Fin grid2.N, isFirstL2 (grid2.coords t) ↔ t.val % 4 = 0)

/-- k = 3: the output tile is written. -/
abbrev isLastL2 (i : grid2.Coords) : Prop := k2_cond2 i = 1#1
theorem isLastL2_iff : ∀ t : Fin cfg2.N, isLastL2 (grid2.coords t) ↔ t.val % 4 = 3 :=
  (by decide +kernel : ∀ t : Fin grid2.N, isLastL2 (grid2.coords t) ↔ t.val % 4 = 3)

theorem out_idleL2 : ∀ t : Fin cfg2.N, ¬isLastL2 (grid2.coords t) → cfg2.idle 4 (grid2.coords t) = true := by decide +kernel
theorem out_unflushedL2 : ∀ t : Fin cfg2.N, ¬isLastL2 (grid2.coords t) → (cfg2.win 4).flush t = false := by decide +kernel
theorem out_liveL2 : ∀ t : Fin cfg2.N, isLastL2 (grid2.coords t) → cfg2.idle 4 (grid2.coords t) = false := by decide +kernel
theorem in_liveL2 : ∀ (w : Fin cfg2.W), w ≠ 4 → ∀ i, cfg2.idle w i = false := by
  intro w hw i; fin_cases w <;> first | rfl | exact absurd rfl hw

abbrev stgL2_0 (t : Fin cfg2.N) : Memref sig .tc .vmem S1024x2048 .f32 := win2_0.stage (cfg2.slots t 0)
abbrev stgL2_1 (t : Fin cfg2.N) : Memref sig .tc .vmem S2048x32 .f32 := win2_1.stage (cfg2.slots t 1)
abbrev stgL2_2 (t : Fin cfg2.N) : Memref sig .tc .vmem S32x64 .f32 := win2_2.stage (cfg2.slots t 2)
abbrev stgL2_3 (t : Fin cfg2.N) : Memref sig .tc .vmem S1x64 .f32 := win2_3.stage (cfg2.slots t 3)
abbrev stgL2_4 (t : Fin cfg2.N) : Memref sig .tc .vmem S1024x64 .f32 := win2_4.stage (cfg2.slots t 4)

abbrev accRefL2 : Memref sig .tc .vmem S1024x64 .f32 := Memref.whole cc2_scratch0

abbrev othersL2 (c : Dev nD) : sProp 𝕄 :=
  Pipeline.scopedRestBut (Ix := Unit) (Name := ℕ) (U := UR sig nD τ) (Lvl := ℕ) (Val := Elt F) spec2 c [cc2_scratch0]

theorem restL2_eq (c : Dev nD) :
    (Pipeline.ΦA spec2 c : sProp 𝕄)
      = iprop(iprop((∃ d, owns (c : Thread nD τ) accRefL2 fullShare d) ∗ othersL2 c) ∗ (∃ r, prngReg c r)) := by
  unfold Pipeline.ΦA
  rw [Pipeline.scopedRest_split_of_list spec2 c [cc2_scratch0] (by decide) (by decide)]
  simp only [accRefL2, owns_whole, othersL2, bigSepL]
  try rfl

end Cert.Kernel.Gcn

end
-- ==== Proof.K.L2RunFirst.lean ====
import proofs.«114493_j18348100288854_1_alg».proof.Proof.K.L2Setup

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : isFirstL2 i) (hlast : ¬isLastL2 i) (adj : Vec F S1024x2048 .f32) (feat : Vec F S2048x32 .f32) (wts : Vec F S32x64 .f32) (bias : Vec F S1x64 .f32) :
    { accPieces : List (View.Piece (Elt F) S1024x64 .f32) //
      ∀ (out : Vec F S1024x64 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, fun out E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L2RunMid.lean ====
import proofs.«114493_j18348100288854_1_alg».proof.Proof.K.L2RunFirst

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : ¬isFirstL2 i) (hlast : ¬isLastL2 i) (adj : Vec F S1024x2048 .f32) (feat : Vec F S2048x32 .f32) (wts : Vec F S32x64 .f32) (bias : Vec F S1x64 .f32) (acc : Vec F S1024x64 .f32) :
    { accPieces : List (View.Piece (Elt F) S1024x64 .f32) //
      ∀ (out : Vec F S1024x64 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, fun out E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.Kernel.Gcn

end
-- ==== Proof.K.L2RunLast.lean ====
import proofs.«114493_j18348100288854_1_alg».proof.Proof.K.L2RunMid

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.Kernel Cert.Kernel.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : ¬isFirstL2 i) (hlast : isLastL2 i) (adj : Vec F S1024x2048 .f32) (feat : Vec F S2048x32 .f32) (wts : Vec F S32x64 .f32) (bias : Vec F S1x64 .f32) (acc : Vec F S1024x64 .f32) :
    Σ' (outPieces : List (View.Piece (Elt F) S1024x64 .f32)), { accPieces : List (View.Piece (Elt F) S1024x64 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, ?_, fun E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.Kernel.Gcn

end
-- ==== Proof.K.L2Body.lean ====
import proofs.«114493_j18348100288854_1_alg».proof.Proof.K.L2RunLast
import Idealize.ShloMosaic.Lib.Pipeline.Value

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem originZeroL2 : (![0, 0] : Fin 2 → Nat) = fun _ => 0 := funext fun a => by fin_cases a <;> rfl

section Point

variable (c : Dev nD) (i : grid2.Coords)
  (adjM : Memref sig .tc .vmem S1024x2048 .f32) (hadjM : adjM.IsWhole)
  (featM : Memref sig .tc .vmem S2048x32 .f32) (hfeatM : featM.IsWhole)
  (wM : Memref sig .tc .vmem S32x64 .f32) (hwM : wM.IsWhole)
  (biasM : Memref sig .tc .vmem S1x64 .f32) (hbiasM : biasM.IsWhole)
  (outM : Memref sig .tc .vmem S1024x64 .f32) (houtM : outM.IsWhole)
  (accM : Memref sig .tc .vmem S1024x64 .f32) (haccM : accM.IsWhole)
  (adj : Vec F S1024x2048 .f32) (feat : Vec F S2048x32 .f32) (wts : Vec F S32x64 .f32) (bias : Vec F S1x64 .f32)
  (acc : Vec F S1024x64 .f32)

/-- The stores of a point tile the buffer they go to, so over any contents it reads back as the last store's payload. -/
theorem readFirstL2 (hfirst : isFirstL2 i) (hlast : ¬isLastL2 i) (f) :
    accM.view.read (Elt F) (accM.view.writes (Elt F) f (runFirstL2 c i adjM hadjM featM hfeatM wM hwM biasM hbiasM outM houtM accM haccM hfirst hlast adj feat wts bias).1)
      = k2_pay2 feat wts bias adj (k2_pay1 (F := F)) := by
  refine (View.read_writes_eq_canon _ _ _ (View.cover_of_tiledL _ S1024x64.size (by sl_kernel_rfl))).trans ?_
  unfold runFirstL2
  dsimp only
  sl_unfold_words
  rw [View.canon_cons_unit_zero (S := S1024x64) originZeroL2, View.readCov_unit_zero (S := S1024x64) _ originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readMidL2 (hfirst : ¬isFirstL2 i) (hlast : ¬isLastL2 i) (f) :
    accM.view.read (Elt F) (accM.view.writes (Elt F) f (runMidL2 c i adjM hadjM featM hfeatM wM hwM biasM hbiasM outM houtM accM haccM hfirst hlast adj feat wts bias acc).1)
      = k2_pay2 feat wts bias adj acc := by
  refine (View.read_writes_eq_canon _ _ _ (View.cover_of_tiledL _ S1024x64.size (by sl_kernel_rfl))).trans ?_
  unfold runMidL2
  dsimp only
  sl_unfold_words
  rw [View.canon_unit_zero (S := S1024x64) originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readLastAccL2 (hfirst : ¬isFirstL2 i) (hlast : isLastL2 i) (f) :
    accM.view.read (Elt F) (accM.view.writes (Elt F) f (runLastL2 c i adjM hadjM featM hfeatM wM hwM biasM hbiasM outM houtM accM haccM hfirst hlast adj feat wts bias acc).2.1)
      = k2_pay2 feat wts bias adj acc := by
  refine (View.read_writes_eq_canon _ _ _ (View.cover_of_tiledL _ S1024x64.size (by sl_kernel_rfl))).trans ?_
  unfold runLastL2
  dsimp only
  sl_unfold_words
  rw [View.canon_unit_zero (S := S1024x64) originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readLastOutL2 (hfirst : ¬isFirstL2 i) (hlast : isLastL2 i) (f) :
    outM.view.read (Elt F) (outM.view.writes (Elt F) f (runLastL2 c i adjM hadjM featM hfeatM wM hwM biasM hbiasM outM houtM accM haccM hfirst hlast adj feat wts bias acc).1)
      = k2_pay3 (k2_pay2 feat wts bias adj acc) := by
  refine (View.read_writes_eq_canon _ _ _ (View.cover_of_tiledL _ S1024x64.size (by sl_kernel_rfl))).trans ?_
  unfold runLastL2
  dsimp only
  sl_unfold_words
  rw [View.canon_unit_zero (S := S1024x64) originZeroL2, View.readCov_unit_zero (S := S1024x64) _ originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

end Point

variable (V : (c : Dev nD) → (b : Ref sig .tc) → Buf (Elt F) ((c : Thread nD τ).loc b))

/-- The accumulator after point n: this point's product added to the reset value at k = 0, else to what point n - 1 left. -/
def accL2 (c : Dev nD) : (n : ℕ) → n < cfg2.N → Vec F S1024x64 .f32
  | 0, h => k2_pay2 (tileL2 V c 1 ⟨0, h⟩) (tileL2 V c 2 ⟨0, h⟩) (tileL2 V c 3 ⟨0, h⟩) (tileL2 V c 0 ⟨0, h⟩) k2_pay1
  | n + 1, h => k2_pay2 (tileL2 V c 1 ⟨n + 1, h⟩) (tileL2 V c 2 ⟨n + 1, h⟩) (tileL2 V c 3 ⟨n + 1, h⟩) (tileL2 V c 0 ⟨n + 1, h⟩)
      (if (n + 1) % 4 = 0 then k2_pay1 else accL2 c n (Nat.lt_of_succ_lt h))

/-- After point n: relu of the accumulator (what a last point stores to the output tile), and the accumulator. -/
def accAtL2 (c : Dev nD) (n : ℕ) (h : n < cfg2.N) : Vec F S1024x64 .f32 × Vec F S1024x64 .f32 :=
  (k2_pay3 (accL2 V c n h), accL2 V c n h)

theorem accAtL2_first (c : Dev nD) (t : Fin cfg2.N) (h : t.val % 4 = 0) :
    (accAtL2 V c t.val t.isLt).2 = k2_pay2 (tileL2 V c 1 t) (tileL2 V c 2 t) (tileL2 V c 3 t) (tileL2 V c 0 t) (k2_pay1 (F := F)) := by
  obtain ⟨n, hn⟩ := t
  cases n with
  | zero => rfl
  | succ n => show k2_pay2 _ _ _ _ (if (n + 1) % 4 = 0 then _ else _) = _; rw [if_pos h]

theorem accAtL2_next (c : Dev nD) (t : Fin cfg2.N) (h : ¬ t.val % 4 = 0) :
    (accAtL2 V c t.val t.isLt).2 = k2_pay2 (tileL2 V c 1 t) (tileL2 V c 2 t) (tileL2 V c 3 t) (tileL2 V c 0 t)
      (accAtL2 V c (t.val - 1) (Nat.lt_of_le_of_lt (Nat.sub_le _ _) t.isLt)).2 := by
  obtain ⟨n, hn⟩ := t
  cases n with
  | zero => exact absurd (Nat.zero_mod 4) h
  | succ n => show k2_pay2 _ _ _ _ (if (n + 1) % 4 = 0 then _ else _) = _; rw [if_neg h]; rfl

theorem accAtL2_out (c : Dev nD) (t : Fin cfg2.N) (h : t.val % 4 = 3) :
    (accAtL2 V c t.val t.isLt).1 = k2_pay3 (accAtL2 V c t.val t.isLt).2 := rfl

/-- Before position n: at n = 0 what the launch hands the layer, afterwards the accumulator at what point n - 1 left beside the rest. -/
def phiL2 (c : Dev nD) : (n : ℕ) → n ≤ cfg2.N → sProp 𝕄
  | 0, _ => Pipeline.ΦA spec2 c
  | n + 1, hn => iprop(iprop(owns (c : Thread nD τ) accRefL2 fullShare ((accAtL2 V c n hn).2) ∗ othersL2 c) ∗ (∃ r, prngReg c r))

theorem phiL2_pos (c : Dev nD) (n : ℕ) (h : n ≤ cfg2.N) (hz : n ≠ 0) :
    phiL2 V c n h = iprop(iprop(owns (c : Thread nD τ) accRefL2 fullShare ((accAtL2 V c (n - 1) (by omega)).2) ∗ othersL2 c) ∗ (∃ r, prngReg c r)) := by
  cases n with
  | zero => exact absurd rfl hz
  | succ n => rfl

/-- At every position the invariant holds the accumulator at some contents. -/
theorem phiL2_acc (c : Dev nD) (n : ℕ) (h : n ≤ cfg2.N) :
    phiL2 V c n h ⊢ iprop(iprop((∃ d, owns (c : Thread nD τ) accRefL2 fullShare d) ∗ othersL2 c) ∗ (∃ r, prngReg c r)) := by
  cases n with
  | zero =>
    show Pipeline.ΦA spec2 c ⊢ _
    rw [restL2_eq]
    try exact .rfl
  | succ n =>
    show iprop(iprop(owns (c : Thread nD τ) accRefL2 fullShare ((accAtL2 V c n h).2) ∗ othersL2 c) ∗ (∃ r, prngReg c r)) ⊢ _
    iintro ⟨⟨Hacc, Hoth⟩, Hg⟩
    isplitl [Hacc Hoth]
    · isplitl [Hacc]; · iexists _; iexact Hacc
      iexact Hoth
    iexact Hg

def datL2 (c : Dev nD) : Dat τ (Elt F) Unit ℕ (UR sig nD τ) ℕ cfg2 c where
  A w := V c (Pipeline.arrRef spec2 w)
  after w t := match w with
    | ⟨0, _⟩ => tileL2 V c 0 t
    | ⟨1, _⟩ => tileL2 V c 1 t
    | ⟨2, _⟩ => tileL2 V c 2 t
    | ⟨3, _⟩ => tileL2 V c 3 t
    | ⟨4, _⟩ => (accAtL2 V c t.val t.isLt).1
  Φ t := phiL2 V c t.val (Nat.le_of_lt_succ t.isLt)
  q _ := fullShare
  owed _ := 0

theorem datL2_A (c : Dev nD) (w : Fin cfg2.W) : (datL2 V c).A w = V c (Pipeline.arrRef spec2 w) := by dsimp only [datL2]
theorem datL2_after_4 (c : Dev nD) (t : Fin cfg2.N) : (datL2 V c).after 4 t = (accAtL2 V c t.val t.isLt).1 := by dsimp only [datL2]
theorem datL2_q (c : Dev nD) (w : Fin cfg2.W) : (datL2 V c).q w = fullShare := rfl
theorem datL2_owed (c : Dev nD) (t : Fin (cfg2.N + 1)) : (datL2 V c).owed t = 0 := rfl

theorem datL2_phi_begin (c : Dev nD) (t : Fin cfg2.N) :
    (datL2 V c).Φ t.castSucc = phiL2 V c t.val (Nat.le_of_lt t.isLt) := by
  dsimp only [datL2]; simp only [Fin.coe_castSucc]

theorem datL2_before_0 (c : Dev nD) (t : Fin cfg2.N) (d) : (datL2 V c).before 0 t d = tileL2 V c 0 t :=
  ((datL2 V c).before_in_eq_fetched 0 rfl (fun _ => rfl) (fun _ _ _ => rfl) (fun _ => rfl) t d).trans rfl
theorem datL2_before_1 (c : Dev nD) (t : Fin cfg2.N) (d) : (datL2 V c).before 1 t d = tileL2 V c 1 t :=
  ((datL2 V c).before_in_eq_fetched 1 rfl (fun _ => rfl) (fun _ _ _ => rfl) (fun _ => rfl) t d).trans rfl
theorem datL2_before_2 (c : Dev nD) (t : Fin cfg2.N) (d) : (datL2 V c).before 2 t d = tileL2 V c 2 t :=
  ((datL2 V c).before_in_eq_fetched 2 rfl (fun _ => rfl) (fun _ _ _ => rfl) (fun _ => rfl) t d).trans rfl
theorem datL2_before_3 (c : Dev nD) (t : Fin cfg2.N) (d) : (datL2 V c).before 3 t d = tileL2 V c 3 t :=
  ((datL2 V c).before_in_eq_fetched 3 rfl (fun _ => rfl) (fun _ _ _ => rfl) (fun _ => rfl) t d).trans rfl

theorem datL2_leaves_0 (c : Dev nD) (t : Fin cfg2.N) :
    (datL2 V c).leavesExact 0 t = owns (c : Thread nD τ) (stgL2_0 t) fullShare (tileL2 V c 0 t) := by
  unfold Dat.leavesExact; rw [in_liveL2 0 (by decide) _]; rfl
theorem datL2_leaves_1 (c : Dev nD) (t : Fin cfg2.N) :
    (datL2 V c).leavesExact 1 t = owns (c : Thread nD τ) (stgL2_1 t) fullShare (tileL2 V c 1 t) := by
  unfold Dat.leavesExact; rw [in_liveL2 1 (by decide) _]; rfl
theorem datL2_leaves_2 (c : Dev nD) (t : Fin cfg2.N) :
    (datL2 V c).leavesExact 2 t = owns (c : Thread nD τ) (stgL2_2 t) fullShare (tileL2 V c 2 t) := by
  unfold Dat.leavesExact; rw [in_liveL2 2 (by decide) _]; rfl
theorem datL2_leaves_3 (c : Dev nD) (t : Fin cfg2.N) :
    (datL2 V c).leavesExact 3 t = owns (c : Thread nD τ) (stgL2_3 t) fullShare (tileL2 V c 3 t) := by
  unfold Dat.leavesExact; rw [in_liveL2 3 (by decide) _]; rfl

def bodyPreL2 (c : Dev nD) (t : Fin cfg2.N) : sProp 𝕄 :=
  iprop((datL2 V c).Φ t.castSucc ∗ (datL2 V c).owesAt () t.castSucc
    ∗ (∃ d, owns (c : Thread nD τ) (stgL2_0 t) fullShare ((datL2 V c).before 0 t d))
    ∗ (∃ d, owns (c : Thread nD τ) (stgL2_1 t) fullShare ((datL2 V c).before 1 t d))
    ∗ (∃ d, owns (c : Thread nD τ) (stgL2_2 t) fullShare ((datL2 V c).before 2 t d))
    ∗ (∃ d, owns (c : Thread nD τ) (stgL2_3 t) fullShare ((datL2 V c).before 3 t d))
    ∗ (∃ d, owns (c : Thread nD τ) (stgL2_4 t) fullShare ((datL2 V c).before 4 t d)))

def bodyPostL2 (c : Dev nD) (t : Fin cfg2.N) : sProp 𝕄 :=
  iprop((datL2 V c).Φ t.succ ∗ (datL2 V c).owesAt () t.succ
    ∗ (datL2 V c).leavesExact 0 t ∗ (datL2 V c).leavesExact 1 t ∗ (datL2 V c).leavesExact 2 t
    ∗ (datL2 V c).leavesExact 3 t ∗ (datL2 V c).leavesExact 4 t)

set_option maxHeartbeats 4800000 in
/-- The body at any point: t mod 4 says which kind of point it is; the invariant hands the accumulator over and takes it
    back at this point's contents, and the output tile goes back untouched except at a last point. -/
theorem bodyL2 (c : Dev nD) (t : Fin cfg2.N) :
    bodyPreL2 V c t ⊢ wp frame (wpE (defs₀ (F := F)) Variants.none c none) Set.univ (bodyAt2 t) (fun _ => bodyPostL2 V c t) := by
  unfold bodyPreL2 bodyPostL2 bodyAt2
  simp only [datL2_before_0, datL2_before_1, datL2_before_2, datL2_before_3]
  rw [show (datL2 V c).owesAt () t.succ = (datL2 V c).owesAt () t.castSucc from rfl]
  rw [show (datL2 V c).Φ t.succ = iprop(iprop(owns (c : Thread nD τ) accRefL2 fullShare ((accAtL2 V c t.val t.isLt).2) ∗ othersL2 c) ∗ (∃ r, prngReg c r)) from rfl]
  rw [datL2_leaves_0, datL2_leaves_1, datL2_leaves_2, datL2_leaves_3, datL2_phi_begin V c t]
  have hN : t.val < 32 := lt_of_lt_of_eq t.isLt (show cfg2.N = 32 from N_2)
  by_cases h0 : t.val % 4 = 0
  · have hf : isFirstL2 (grid2.coords t) := (isFirstL2_iff t).mpr h0
    have hnl : ¬isLastL2 (grid2.coords t) := fun h => absurd ((isLastL2_iff t).mp h) (by omega)
    rw [Dat.leavesExact_idle (datL2 V c) 4 t (out_idleL2 t hnl) (out_unflushedL2 t hnl), accAtL2_first V c t h0]
    iintro ⟨Hphi, Ho, ⟨%d0, H0⟩, ⟨%d1, H1⟩, ⟨%d2, H2⟩, ⟨%d3, H3⟩, ⟨%d4, H4⟩⟩
    ihave Hparts := (phiL2_acc V c _ _) $$ Hphi
    icases Hparts with ⟨⟨Hacc, Hoth⟩, Hg⟩
    iapply ((runFirstL2 c (grid2.coords t) _ _ _ _ _ _ _ _ _ _ _ _ hf hnl (tileL2 V c 0 t) (tileL2 V c 1 t) (tileL2 V c 2 t) (tileL2 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL2 ..
    iexists _; iexact H4
  · have hnf : ¬isFirstL2 (grid2.coords t) := fun h => h0 ((isFirstL2_iff t).mp h)
    have hz : t.val ≠ 0 := fun h => h0 (by rw [h])
    rw [phiL2_pos V c _ _ hz, accAtL2_next V c t h0]
    by_cases h3 : t.val % 4 = 3
    · have hl : isLastL2 (grid2.coords t) := (isLastL2_iff t).mpr h3
      rw [show (datL2 V c).leavesExact 4 t = owns (c : Thread nD τ) (stgL2_4 t) fullShare ((datL2 V c).after 4 t) from by
        unfold Dat.leavesExact; rw [out_liveL2 t hl], datL2_after_4, accAtL2_out V c t h3, accAtL2_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL2 c (grid2.coords t) _ _ _ _ _ _ _ _ _ _ _ _ hnf hl (tileL2 V c 0 t) (tileL2 V c 1 t) (tileL2 V c 2 t) (tileL2 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL2 ..
      unfold owns; iexists _; isplitr
      swap; · iexact H4
      ipureintro; exact readLastOutL2 ..
    · have hnl : ¬isLastL2 (grid2.coords t) := fun h => h3 ((isLastL2_iff t).mp h)
      rw [Dat.leavesExact_idle (datL2 V c) 4 t (out_idleL2 t hnl) (out_unflushedL2 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL2 c (grid2.coords t) _ _ _ _ _ _ _ _ _ _ _ _ hnf hnl (tileL2 V c 0 t) (tileL2 V c 1 t) (tileL2 V c 2 t) (tileL2 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL2 ..
      iexists _; iexact H4

theorem body_obligationL2 (c : Dev nD) : BodyObligation (datL2 (F := F) V c) (defs₀ (F := F)) Variants.none () Set.univ := fun t => by
  rw [bigSep_W2, bigSep_W2]
  exact bodyL2 V c t

theorem phiL2_in (c : Dev nD) : Pipeline.ΦA spec2 c ⊢ (datL2 V c).Φ 0 := by
  show _ ⊢ phiL2 V c 0 (Nat.zero_le _)
  exact .rfl

/-- After the last point the invariant gives back what the launch handed over, the accumulator's contents forgotten. -/
theorem phiL2_out (c : Dev nD) : (datL2 V c).Φ (Fin.last cfg2.N) ⊢ Pipeline.ΦA spec2 c := by
  rw [restL2_eq]
  exact phiL2_acc V c cfg2.N (Nat.le_refl _)

end Cert.Kernel.Gcn

end
-- ==== Proof.K.Launch.lean ====
import proofs.«114493_j18348100288854_1_alg».proof.Proof.K.L0Body
import proofs.«114493_j18348100288854_1_alg».proof.Proof.K.L1Body
import proofs.«114493_j18348100288854_1_alg».proof.Proof.K.L2Body
import proofs.«114493_j18348100288854_1_alg».proof.Proof.Gen.Kernel.Regions
import Idealize.ShloMosaic.Lib.Pipeline.FrameSuffix
import Idealize.ShloMosaic.Lib.Pipeline.RegionsLoop

set_option maxRecDepth 16384

noncomputable section

namespace Cert.Kernel.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c (Proc.devRef .tc b)

def W2 (c : Dev nD) : Valuation τ sig (Elt F) :=
  Pipeline.withArrays spec0 c (W1 m c) fun w => (datL0 (V1 m) c).arrAt w cfg0.N

abbrev W3 (c : Dev nD) : Valuation τ sig (Elt F) := StableHlo.after hostOps1 (W2 m c)
abbrev V3 : (c : Dev nD) → (b : Ref sig .tc) → Buf (Elt F) ((c : Thread nD τ).loc b) := fun c b => W3 m c (Proc.devRef .tc b)

def W4 (c : Dev nD) : Valuation τ sig (Elt F) :=
  Pipeline.withArrays spec1 c (W3 m c) fun w => (datL1 (V3 m) c).arrAt w cfg1.N

abbrev W5 (c : Dev nD) : Valuation τ sig (Elt F) := StableHlo.after hostOps2 (W4 m c)
abbrev V5 : (c : Dev nD) → (b : Ref sig .tc) → Buf (Elt F) ((c : Thread nD τ).loc b) := fun c b => W5 m c (Proc.devRef .tc b)

def W6 (c : Dev nD) : Valuation τ sig (Elt F) :=
  Pipeline.withArrays spec2 c (W5 m c) fun w => (datL2 (V5 m) c).arrAt w cfg2.N

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

theorem W2_arr (c : Dev nD) (w : Fin cfg0.W) :
    W2 m c (Proc.devRef .tc (Pipeline.arrRef spec0 w)) = (datL0 (V1 m) c).arrAt w cfg0.N := by
  unfold W2; exact Pipeline.withArrays_arr spec0 launch0.win.arr_inj c _ _ w

theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_out (c : Dev nD) : W2 m c (Proc.devRef .tc main_v1) = (datL0 (V1 m) c).arrAt 4 cfg0.N := W2_arr m c 4

theorem W2_keeps (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    have hin : (cfg0.win w).isOut = false := by fin_cases w <;> first | rfl | exact absurd rfl hb
    exact (W2_arr m c w).trans (((datL0 (V1 m) c).arrAt_in w hin _).trans (datL0_A (V1 m) c w))
  · exact W2_off m c b fun w e => h ⟨w, e⟩

theorem W4_arr (c : Dev nD) (w : Fin cfg1.W) :
    W4 m c (Proc.devRef .tc (Pipeline.arrRef spec1 w)) = (datL1 (V3 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W4_out (c : Dev nD) : W4 m c (Proc.devRef .tc main_v3) = (datL1 (V3 m) c).arrAt 4 cfg1.N := W4_arr m c 4
theorem W4_keeps (c : Dev nD) (b : Ref sig .tc) (hb : b ≠ main_v3) : W4 m c (Proc.devRef .tc b) = W3 m c (Proc.devRef .tc b) := by
  by_cases h : ∃ w, Pipeline.arrRef spec1 w = b
  · obtain ⟨w, rfl⟩ := h
    have hin : (cfg1.win w).isOut = false := by fin_cases w <;> first | rfl | exact absurd rfl hb
    exact (W4_arr m c w).trans (((datL1 (V3 m) c).arrAt_in w hin _).trans (datL1_A (V3 m) c w))
  · exact W4_off m c b fun w e => h ⟨w, e⟩

theorem W6_arr (c : Dev nD) (w : Fin cfg2.W) :
    W6 m c (Proc.devRef .tc (Pipeline.arrRef spec2 w)) = (datL2 (V5 m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W6_out (c : Dev nD) : W6 m c (Proc.devRef .tc main_v5) = (datL2 (V5 m) c).arrAt 4 cfg2.N := W6_arr m c 4
theorem W6_keeps (c : Dev nD) (b : Ref sig .tc) (hb : b ≠ main_v5) : W6 m c (Proc.devRef .tc b) = W5 m c (Proc.devRef .tc b) := by
  by_cases h : ∃ w, Pipeline.arrRef spec2 w = b
  · obtain ⟨w, rfl⟩ := h
    have hin : (cfg2.win w).isOut = false := by fin_cases w <;> first | rfl | exact absurd rfl hb
    exact (W6_arr m c w).trans (((datL2 (V5 m) c).arrAt_in w hin _).trans (datL2_A (V5 m) c w))
  · exact W6_off m c b fun w e => h ⟨w, e⟩

abbrev changed : List (Ref sig .tc) :=
  hostOps0_W ++ [main_v1] ++ hostOps1_W ++ [main_v3] ++ hostOps2_W ++ [main_v5] ++ hostOps3_W ++ hostOps3_1_W ++ hostOps3_2_W

/-- No host stretch writes an argument and no layer's output array is one. -/
theorem W9_unchanged (c : Dev nD) (r : Ref sig .tc) (hr : r ∉ (changed : List (Ref sig .tc))) :
    W9 m c (Proc.devRef .tc r) = m ((c : Thread nD τ).loc r) := by
  simp only [changed, List.mem_append, not_or] at hr
  obtain ⟨⟨⟨⟨⟨⟨⟨⟨h0, hv1⟩, h1⟩, hv3⟩, h2⟩, hv5⟩, h3⟩, h31⟩, h32⟩ := hr
  calc W9 m c (Proc.devRef .tc r)
    _ = W8 m c (Proc.devRef .tc r) := StableHlo.after_of_writes_sub hostOps3_2 _ hostOps3_2_writes h32
    _ = W7 m c (Proc.devRef .tc r) := StableHlo.after_of_writes_sub hostOps3_1 _ hostOps3_1_writes h31
    _ = W6 m c (Proc.devRef .tc r) := StableHlo.after_of_writes_sub hostOps3 _ hostOps3_writes h3
    _ = W5 m c (Proc.devRef .tc r) := W6_keeps m c r (List.ne_of_not_mem_cons hv5)
    _ = W4 m c (Proc.devRef .tc r) := StableHlo.after_of_writes_sub hostOps2 _ hostOps2_writes h2
    _ = W3 m c (Proc.devRef .tc r) := W4_keeps m c r (List.ne_of_not_mem_cons hv3)
    _ = W2 m c (Proc.devRef .tc r) := StableHlo.after_of_writes_sub hostOps1 _ hostOps1_writes h1
    _ = W1 m c (Proc.devRef .tc r) := W2_keeps m c r (List.ne_of_not_mem_cons hv1)
    _ = W0 m c (Proc.devRef .tc r) := StableHlo.after_of_writes_sub hostOps0 _ hostOps0_writes h0
    _ = m ((c : Thread nD τ).loc r) := rfl

def pdats : (p : Fin 3) → (c : Dev nD) → Dat τ (Elt F) Unit ℕ (UR sig nD τ) ℕ (Pipeline.pin (pcfgs (F := F)) adm p) c
  | ⟨0, _⟩ => fun c => datL0 (V1 m) c
  | ⟨1, _⟩ => fun c => datL1 (V3 m) c
  | ⟨2, _⟩ => fun c => datL2 (V5 m) c

abbrev L : GSem nD τ sig → Finset Unit := fun _ => ∅
abbrev lv : GSem nD τ sig → Unit → ℕ := fun _ _ => 0

abbrev carried (c : Dev nD) : sProp 𝕄 :=
  iprop((∃ r, prngReg c r) ∗ ∃ W, owes (c : Thread nD τ) (0 : CellTallies nD τ sig Unit) W)

abbrev between (Wv : Dev nD → Valuation τ sig (Elt F)) (c : Dev nD) : sProp 𝕄 :=
  iprop(StableHlo.held (c : Thread nD τ) (Pipeline.ucRefs τ sig) (Wv c) ∗ carried c)

abbrev hostStretch (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv carried

section Protocol

variable (p : Fin 3) (c : Dev nD)

set_option backward.isDefEq.respectTransparency.types false in
theorem enter_layer (hw : Pipeline.WinFacts (Pipeline.pin (pcfgs (F := F)) adm p).spec)
    (harr : ∀ w, ((Pipeline.pin (pcfgs (F := F)) adm p).spec w).arr.IsWhole)
    (Wv : Valuation τ sig (Elt F))
    (hq : ∀ w, (pdats m p c).q w = fullShare)
    (hA : ∀ w, (pdats m p c).A w = Wv (Proc.devRef .tc (Pipeline.arrRef (Pipeline.pin (pcfgs (F := F)) adm p).spec w)))
    (howed : (pdats m p c).owed 0 = 0) (hrec : (pdats m p c).recorded 0 = Set.univ)
    (hK : (pcfgs (F := F) p).pre.K = 0) :
    (iprop(iprop(StableHlo.held (c : Thread nD τ) (Pipeline.ucRefs τ sig) Wv ∗ carried c)
        ∗ Pipeline.ownSems0 (fun k : PEmpty => k.elim) c ∗ levAts L lv) : sProp 𝕄)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (Pipeline.pin (pcfgs (F := F)) adm p).spec c
              (fun b => Wv (Proc.devRef .tc b))) := by
  have hsplit := Pipeline.arrays_of_unscopedBufs (p := p) (pcfgs (F := F)) adm (pdats m) hw harr c
    ((pdats m p c).share_full hq) (fun b => Wv (Proc.devRef .tc b)) hA
  rw [Pipeline.unscopedBufs_held c Wv] at hsplit
  haveI : IsEmpty (Fin (pcfgs (F := F) p).pre.K) := by rw [hK]; infer_instance
  iintro ⟨⟨Hbufs, Hreg, Howes⟩, -, -⟩
  ihave Hparts := hsplit $$ Hbufs
  icases Hparts with ⟨Harrs, Hround⟩
  imodintro
  isplitl [Harrs]; · iexact Harrs
  isplitr
  · unfold Pipeline.prefHeld; rw [Finset.univ_eq_empty, BI.bigSep_empty]; iempintro
  isplitl [Howes]
  · unfold Pipeline.Dat.owesAt Pipeline.owesWithin Pipeline.Dat.bound
    rw [howed, hrec]
    icases Howes with ⟨%S, Howes⟩
    iexists S
    isplitr; · ipureintro; exact fun _ _ => Or.inl trivial
    iexact Howes
  isplitl [Hreg]; · iexact Hreg
  iexact Hround

set_option backward.isDefEq.respectTransparency.types false in
theorem leave_layer (hw : Pipeline.WinFacts (Pipeline.pin (pcfgs (F := F)) adm p).spec)
    (harr : ∀ w, ((Pipeline.pin (pcfgs (F := F)) adm p).spec w).arr.IsWhole)
    (Wv Wv' : Valuation τ sig (Elt F))
    (hq : ∀ w, (pdats m p c).q w = fullShare)
    (hF : ∀ w, (pdats m p c).arrAt w (Pipeline.pin (pcfgs (F := F)) adm p).N
      = Wv' (Proc.devRef .tc (Pipeline.arrRef (Pipeline.pin (pcfgs (F := F)) adm p).spec w)))
    (hrest : ∀ b : Ref sig .tc, b ∉ Finset.univ.image (Pipeline.arrRef (Pipeline.pin (pcfgs (F := F)) adm p).spec)
      → Wv' (Proc.devRef .tc b) = Wv (Proc.devRef .tc b))
    (howed : (pdats m p c).owed (Fin.last (Pipeline.pin (pcfgs (F := F)) adm p).N) = 0) :
    (iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c
            (fun b => Wv (Proc.devRef .tc b))) : sProp 𝕄)
      ⊢ |={Set.univ}=> iprop(StableHlo.held (c : Thread nD τ) (Pipeline.ucRefs τ sig) Wv' ∗ carried c) := by
  have hjoin := Pipeline.unscopedBufs_of_arrays (p := p) (pcfgs (F := F)) adm (Ix := Unit) (Name := ℕ) (U := UR sig nD τ) (Lvl := ℕ)
    hw harr c (pdats m) ((pdats m p c).share_full hq) (fun b => Wv (Proc.devRef .tc b)) (fun b => Wv' (Proc.devRef .tc b))
    ((pdats m p c).arrAt · (Pipeline.pin (pcfgs (F := F)) adm p).N) hF hrest
  rw [Pipeline.unscopedBufs_held c Wv'] at hjoin
  iintro ⟨Harrs, Howes, Hreg, Hround⟩
  imodintro
  isplitl [Harrs Hround]
  · iapply hjoin
    isplitl [Harrs]; · iexact Harrs
    iexact Hround
  isplitl [Hreg]; · iexact Hreg
  unfold Pipeline.Dat.owesAt Pipeline.owesWithin
  rw [howed]
  icases Howes with ⟨%S, -, Howes⟩
  iexists S
  iexact Howes

theorem into_invariant (hphi : (Pipeline.ΦA (Pipeline.pin (pcfgs (F := F)) adm p).spec c : sProp 𝕄) ⊢ (pdats m p c).Φ 0) :
    (iprop((∃ r, prngReg c r) ∗ Pipeline.prefHeld (pcfgs (F := F) p).pre c (fun _ => fullShare) (adm p).1
        ∗ Pipeline.scopedRest (Pipeline.pin (pcfgs (F := F)) adm p).spec c) : sProp 𝕄) ⊢ (pdats m p c).Φ 0 := by
  have hclass : (iprop((∃ r, prngReg c r) ∗ Pipeline.prefHeld (pcfgs (F := F) p).pre c (fun _ => fullShare) (adm p).1
      ∗ Pipeline.scopedRest (Pipeline.pin (pcfgs (F := F)) adm p).spec c) : sProp 𝕄)
      ⊢ Pipeline.ΦA (Pipeline.pin (pcfgs (F := F)) adm p).spec c := by
    unfold Pipeline.ΦA
    iintro ⟨Hreg, -, Hscoped⟩
    isplitl [Hscoped]; · iexact Hscoped
    iexact Hreg
  exact hclass.trans hphi

theorem out_of_invariant
    (hphi : (pdats m p c).Φ (Fin.last (Pipeline.pin (pcfgs (F := F)) adm p).N) ⊢ (Pipeline.ΦA (Pipeline.pin (pcfgs (F := F)) adm p).spec c : sProp 𝕄)) :
    (pdats m p c).Φ (Fin.last (Pipeline.pin (pcfgs (F := F)) adm p).N)
      ⊢ (iprop((∃ r, prngReg c r) ∗ Pipeline.ownSems0 (fun k : PEmpty => k.elim) c
          ∗ Pipeline.scopedRest (Pipeline.pin (pcfgs (F := F)) adm p).spec c) : sProp 𝕄) := by
  have hclass : (Pipeline.ΦA (Pipeline.pin (pcfgs (F := F)) adm p).spec c : sProp 𝕄)
      ⊢ iprop((∃ r, prngReg c r) ∗ Pipeline.ownSems0 (fun k : PEmpty => k.elim) c
          ∗ Pipeline.scopedRest (Pipeline.pin (pcfgs (F := F)) adm p).spec c) := by
    unfold Pipeline.ΦA
    rw [Pipeline.ownSems0_none]
    iintro ⟨Hscoped, Hreg⟩
    isplitl [Hreg]; · iexact Hreg
    isplitr; · iempintro
    iexact Hscoped
  exact hphi.trans hclass

end Protocol

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligationL0 (V1 m) c).loose
  hwaits := Pipeline.hwaits_of_owed_zero _ _ _ _ L lv 0 fun c t => datL0_owed (V1 m) c t
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := enter_layer m 0 c launch0.win launch0.arr_whole (W1 m c) (datL0_q (V1 m) c) (datL0_A (V1 m) c)
    (datL0_owed (V1 m) c 0) rfl rfl
  hin c := into_invariant m 0 c (phiL0_in (V1 m) c)
  hout c := out_of_invariant m 0 c (phiL0_out (V1 m) c)
  hexit c := leave_layer m 0 c launch0.win launch0.arr_whole (W1 m c) (W2 m c) (datL0_q (V1 m) c)
    (fun w => (W2_arr m c w).symm)
    (fun b hb => W2_off m c b fun w e => hb (Finset.mem_image.mpr ⟨w, Finset.mem_univ _, e⟩))
    (datL0_owed (V1 m) c _)

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligationL1 (V3 m) c).loose
  hwaits := Pipeline.hwaits_of_owed_zero _ _ _ _ L lv 1 fun c t => datL1_owed (V3 m) c t
  pre := between (W3 m)
  post := between (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := enter_layer m 1 c launch1.win launch1.arr_whole (W3 m c) (datL1_q (V3 m) c) (datL1_A (V3 m) c)
    (datL1_owed (V3 m) c 0) rfl rfl
  hin c := into_invariant m 1 c (phiL1_in (V3 m) c)
  hout c := out_of_invariant m 1 c (phiL1_out (V3 m) c)
  hexit c := leave_layer m 1 c launch1.win launch1.arr_whole (W3 m c) (W4 m c) (datL1_q (V3 m) c)
    (fun w => (W4_arr m c w).symm)
    (fun b hb => W4_off m c b fun w e => hb (Finset.mem_image.mpr ⟨w, Finset.mem_univ _, e⟩))
    (datL1_owed (V3 m) c _)

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligationL2 (V5 m) c).loose
  hwaits := Pipeline.hwaits_of_owed_zero _ _ _ _ L lv 2 fun c t => datL2_owed (V5 m) c t
  pre := between (W5 m)
  post := between (W6 m)
  X c := iprop(∃ r, prngReg c r)
  Y c := iprop(∃ r, prngReg c r)
  Z c := Pipeline.unscopedRest (Ix := Unit) (Name := ℕ) (U := UR sig nD τ) (Lvl := ℕ) spec2 c (V5 m c)
  hentry c := enter_layer m 2 c launch2.win launch2.arr_whole (W5 m c) (datL2_q (V5 m) c) (datL2_A (V5 m) c)
    (datL2_owed (V5 m) c 0) rfl rfl
  hin c := into_invariant m 2 c (phiL2_in (V5 m) c)
  hout c := out_of_invariant m 2 c (phiL2_out (V5 m) c)
  hexit c := leave_layer m 2 c launch2.win launch2.arr_whole (W5 m c) (W6 m c) (datL2_q (V5 m) c)
    (fun w => (W6_arr m c w).symm)
    (fun b hb => W6_off m c b fun w e => hb (Finset.mem_image.mpr ⟨w, Finset.mem_univ _, e⟩))
    (datL2_owed (V5 m) c _)

abbrev segs : List (Pipeline.Seg (pcfgs (F := F)) adm (pdats m) () defs₀ Variants.none L lv) :=
  [ .host (hostStretch hostOps0 hostOps0_sub hostOps0_fresh (W0 m)),
    .region (reg0 m),
    .host (hostStretch hostOps1 hostOps1_sub hostOps1_fresh (W2 m)),
    .region (reg1 m),
    .host (hostStretch hostOps2 hostOps2_sub hostOps2_fresh (W4 m)),
    .region (reg2 m),
    .host (hostStretch hostOps3 hostOps3_sub hostOps3_fresh (W6 m)),
    .host (hostStretch hostOps3_1 hostOps3_1_sub hostOps3_1_fresh (W7 m)),
    .host (hostStretch hostOps3_2 hostOps3_2_sub hostOps3_2_fresh (W8 m)) ]

theorem main_run (c : Dev nD) : main (F := F) c = Pipeline.Seg.run (segs m) := (main_chain c).trans (by chain_rfl)

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No stretch writes an argument: where memory agrees with the last boundary's contents it holds the launch contents. -/
theorem arg_kept (c : Dev nD) (r : Ref sig .tc) (hu : ¬ (Proc.devRef .tc r : DevRef τ sig).isScoped) (hr : r ∉ (changed : List (Ref sig .tc)))
    (mem : (ℓ : Loc nD τ sig) → Buf (Elt F) ℓ) (h : ∀ b ∈ Pipeline.ucRefs τ sig, mem ((c : Thread nD τ).1, b) = W9 m c b) :
    mem ((c : Thread nD τ).loc r) = m ((c : Thread nD τ).loc r) :=
  (h _ (unscoped_mem r hu)).trans (W9_unchanged m c r hr)

abbrev atReturn (c : Dev nD) : sProp 𝕄 :=
  iprop(StableHlo.held (c : Thread nD τ) (Pipeline.ucRefs τ sig) (W9 m c) ∗ ∃ r, prngReg c r)
theorem between_last (c : Dev nD) :
    between (W9 m) c ⊢ iprop(atReturn m c ∗ ∃ W, owes (c : Thread nD τ) (0 : CellTallies nD τ sig Unit) W) := by
  iintro ⟨Hbufs, Hreg, Howes⟩
  isplitl [Hbufs Hreg]
  · isplitl [Hbufs]; · iexact Hbufs
    iexact Hreg
  iexact Howes

set_option backward.isDefEq.respectTransparency.types false in
/-- Every weakly fair execution of @main terminates with every buffer it holds between stretches at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlib
      imodintro
      isplitl [Hlib]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlib
      iapply (show (BI.emp : sProp 𝕄) ⊢ bigSep Finset.univ (fun _ : Dev nD => (BI.emp : sProp 𝕄)) from by rw [BI.bigSep_emp_const])
      iempintro)
    (T₀ := between (W0 m)) (Tₙ := atReturn m)
    (hch := ⟨fun _ => .rfl, fun _ => .rfl, fun _ => .rfl, fun _ => .rfl, fun _ => .rfl, fun _ => .rfl, fun _ => .rfl,
      fun _ => .rfl, fun _ => .rfl, fun c => between_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem ((c : Thread nD τ).1, b) = W9 m c b)
    (hfin := fun c s' => by
      iintro ⟨⟨Hbufs, -⟩, Hstate⟩
      unfold StableHlo.held
      imodintro
      iapply (pointsTo_read_all (Pipeline.ucRefs τ sig) (fun b => ((c : Thread nD τ).1, b)) (W9 m c) s')
      isplitl [Hbufs]; · iexact Hbufs
      iexact Hstate)
    (hQ := fun s h => h)

end Cert.Kernel.Gcn

end
-- ==== Proof.KI.L0Setup.lean ====
import proofs.«114493_j18348100288854_1_alg».proof.Proof.Gen.KernelIdeal.Launch
import proofs.«114493_j18348100288854_1_alg».proof.Proof.Gen.KernelIdeal.Skeleton
import proofs.«114493_j18348100288854_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- k = 0: the accumulator is reset. -/
abbrev isFirstL0 (i : grid0.Coords) : Prop := (Scalar.cmpi .ne (Scalar.extui (Scalar.cmpi .eq (BitVec.ofNat 32 (i 1).val) 0#32)) 0#32) = 1#1
theorem isFirstL0_iff : ∀ t : Fin cfg0.N, isFirstL0 (grid0.coords t) ↔ t.val % 4 = 0 :=
  (by decide +kernel : ∀ t : Fin grid0.N, isFirstL0 (grid0.coords t) ↔ t.val % 4 = 0)

/-- k = 3: the output tile is written. -/
abbrev isLastL0 (i : grid0.Coords) : Prop := k0_cond2 i = 1#1
theorem isLastL0_iff : ∀ t : Fin cfg0.N, isLastL0 (grid0.coords t) ↔ t.val % 4 = 3 :=
  (by decide +kernel : ∀ t : Fin grid0.N, isLastL0 (grid0.coords t) ↔ t.val % 4 = 3)

theorem out_idleL0 : ∀ t : Fin cfg0.N, ¬isLastL0 (grid0.coords t) → cfg0.idle 4 (grid0.coords t) = true := by decide +kernel
theorem out_unflushedL0 : ∀ t : Fin cfg0.N, ¬isLastL0 (grid0.coords t) → (cfg0.win 4).flush t = false := by decide +kernel
theorem out_liveL0 : ∀ t : Fin cfg0.N, isLastL0 (grid0.coords t) → cfg0.idle 4 (grid0.coords t) = false := by decide +kernel
theorem in_liveL0 : ∀ (w : Fin cfg0.W), w ≠ 4 → ∀ i, cfg0.idle w i = false := by
  intro w hw i; fin_cases w <;> first | rfl | exact absurd rfl hw

abbrev stgL0_0 (t : Fin cfg0.N) : Memref sig .tc .vmem S1024x2048 .f32 := win0_0.stage (cfg0.slots t 0)
abbrev stgL0_1 (t : Fin cfg0.N) : Memref sig .tc .vmem S2048x128 .f32 := win0_1.stage (cfg0.slots t 1)
abbrev stgL0_2 (t : Fin cfg0.N) : Memref sig .tc .vmem S128x16 .f32 := win0_2.stage (cfg0.slots t 2)
abbrev stgL0_3 (t : Fin cfg0.N) : Memref sig .tc .vmem S1x16 .f32 := win0_3.stage (cfg0.slots t 3)
abbrev stgL0_4 (t : Fin cfg0.N) : Memref sig .tc .vmem S1024x16 .f32 := win0_4.stage (cfg0.slots t 4)

abbrev accRefL0 : Memref sig .tc .vmem S1024x16 .f32 := Memref.whole cc0_scratch0

abbrev othersL0 (c : Dev nD) : sProp 𝕄 :=
  Pipeline.scopedRestBut (Ix := Unit) (Name := ℕ) (U := UR sig nD τ) (Lvl := ℕ) (Val := Elt F) spec0 c [cc0_scratch0]

theorem restL0_eq (c : Dev nD) :
    (Pipeline.ΦA spec0 c : sProp 𝕄)
      = iprop(iprop((∃ d, owns (c : Thread nD τ) accRefL0 fullShare d) ∗ othersL0 c) ∗ (∃ r, prngReg c r)) := by
  unfold Pipeline.ΦA
  rw [Pipeline.scopedRest_split_of_list spec0 c [cc0_scratch0] (by decide) (by decide)]
  simp only [accRefL0, owns_whole, othersL0, bigSepL]
  try rfl

end Cert.KernelIdeal.Gcn

end
-- ==== Proof.KI.L0RunFirst.lean ====
import proofs.«114493_j18348100288854_1_alg».proof.Proof.KI.L0Setup

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : isFirstL0 i) (hlast : ¬isLastL0 i) (adj : Vec F S1024x2048 .f32) (feat : Vec F S2048x128 .f32) (wts : Vec F S128x16 .f32) (bias : Vec F S1x16 .f32) :
    { accPieces : List (View.Piece (Elt F) S1024x16 .f32) //
      ∀ (out : Vec F S1024x16 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, fun out E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L0RunMid.lean ====
import proofs.«114493_j18348100288854_1_alg».proof.Proof.KI.L0RunFirst

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : ¬isFirstL0 i) (hlast : ¬isLastL0 i) (adj : Vec F S1024x2048 .f32) (feat : Vec F S2048x128 .f32) (wts : Vec F S128x16 .f32) (bias : Vec F S1x16 .f32) (acc : Vec F S1024x16 .f32) :
    { accPieces : List (View.Piece (Elt F) S1024x16 .f32) //
      ∀ (out : Vec F S1024x16 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, fun out E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L0RunLast.lean ====
import proofs.«114493_j18348100288854_1_alg».proof.Proof.KI.L0RunMid

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL0 (c : Dev nD) (i : grid0.Coords)
    (adjM : Memref sig .tc .vmem S1024x2048 .f32) (hadjM : adjM.IsWhole)
    (featM : Memref sig .tc .vmem S2048x128 .f32) (hfeatM : featM.IsWhole)
    (wM : Memref sig .tc .vmem S128x16 .f32) (hwM : wM.IsWhole)
    (biasM : Memref sig .tc .vmem S1x16 .f32) (hbiasM : biasM.IsWhole)
    (outM : Memref sig .tc .vmem S1024x16 .f32) (houtM : outM.IsWhole)
    (accM : Memref sig .tc .vmem S1024x16 .f32) (haccM : accM.IsWhole)
    (hfirst : ¬isFirstL0 i) (hlast : isLastL0 i) (adj : Vec F S1024x2048 .f32) (feat : Vec F S2048x128 .f32) (wts : Vec F S128x16 .f32) (bias : Vec F S1x16 .f32) (acc : Vec F S1024x16 .f32) :
    Σ' (outPieces : List (View.Piece (Elt F) S1024x16 .f32)), { accPieces : List (View.Piece (Elt F) S1024x16 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc0__gcn_layer_kernel i adjM hadjM featM hfeatM wM hwM biasM hbiasM outM houtM accM haccM) K } := by
  refine ⟨?_, ?_, fun E K => ?run⟩
  case run =>
    simp only [cc0__gcn_layer_kernel_eq_skeleton]; unfold cc0__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.KernelIdeal.Gcn

end
-- ==== Proof.KI.L0Body.lean ====
import proofs.«114493_j18348100288854_1_alg».proof.Proof.KI.L0RunLast
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem originZeroL0 : (![0, 0] : Fin 2 → Nat) = fun _ => 0 := funext fun a => by fin_cases a <;> rfl

section Point

variable (c : Dev nD) (i : grid0.Coords)
  (adjM : Memref sig .tc .vmem S1024x2048 .f32) (hadjM : adjM.IsWhole)
  (featM : Memref sig .tc .vmem S2048x128 .f32) (hfeatM : featM.IsWhole)
  (wM : Memref sig .tc .vmem S128x16 .f32) (hwM : wM.IsWhole)
  (biasM : Memref sig .tc .vmem S1x16 .f32) (hbiasM : biasM.IsWhole)
  (outM : Memref sig .tc .vmem S1024x16 .f32) (houtM : outM.IsWhole)
  (accM : Memref sig .tc .vmem S1024x16 .f32) (haccM : accM.IsWhole)
  (adj : Vec F S1024x2048 .f32) (feat : Vec F S2048x128 .f32) (wts : Vec F S128x16 .f32) (bias : Vec F S1x16 .f32)
  (acc : Vec F S1024x16 .f32)

/-- The stores of a point tile the buffer they go to, so over any contents it reads back as the last store's payload. -/
theorem readFirstL0 (hfirst : isFirstL0 i) (hlast : ¬isLastL0 i) (f) :
    accM.view.read (Elt F) (accM.view.writes (Elt F) f (runFirstL0 c i adjM hadjM featM hfeatM wM hwM biasM hbiasM outM houtM accM haccM hfirst hlast adj feat wts bias).1)
      = k0_pay2 feat wts bias adj (k0_pay1 (F := F)) := by
  refine (View.read_writes_eq_canon _ _ _ (View.cover_of_tiledL _ S1024x16.size (by sl_kernel_rfl))).trans ?_
  unfold runFirstL0
  dsimp only
  sl_unfold_words
  rw [View.canon_cons_unit_zero (S := S1024x16) originZeroL0, View.readCov_unit_zero (S := S1024x16) _ originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readMidL0 (hfirst : ¬isFirstL0 i) (hlast : ¬isLastL0 i) (f) :
    accM.view.read (Elt F) (accM.view.writes (Elt F) f (runMidL0 c i adjM hadjM featM hfeatM wM hwM biasM hbiasM outM houtM accM haccM hfirst hlast adj feat wts bias acc).1)
      = k0_pay2 feat wts bias adj acc := by
  refine (View.read_writes_eq_canon _ _ _ (View.cover_of_tiledL _ S1024x16.size (by sl_kernel_rfl))).trans ?_
  unfold runMidL0
  dsimp only
  sl_unfold_words
  rw [View.canon_unit_zero (S := S1024x16) originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readLastAccL0 (hfirst : ¬isFirstL0 i) (hlast : isLastL0 i) (f) :
    accM.view.read (Elt F) (accM.view.writes (Elt F) f (runLastL0 c i adjM hadjM featM hfeatM wM hwM biasM hbiasM outM houtM accM haccM hfirst hlast adj feat wts bias acc).2.1)
      = k0_pay2 feat wts bias adj acc := by
  refine (View.read_writes_eq_canon _ _ _ (View.cover_of_tiledL _ S1024x16.size (by sl_kernel_rfl))).trans ?_
  unfold runLastL0
  dsimp only
  sl_unfold_words
  rw [View.canon_unit_zero (S := S1024x16) originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

theorem readLastOutL0 (hfirst : ¬isFirstL0 i) (hlast : isLastL0 i) (f) :
    outM.view.read (Elt F) (outM.view.writes (Elt F) f (runLastL0 c i adjM hadjM featM hfeatM wM hwM biasM hbiasM outM houtM accM haccM hfirst hlast adj feat wts bias acc).1)
      = k0_pay3 (k0_pay2 feat wts bias adj acc) := by
  refine (View.read_writes_eq_canon _ _ _ (View.cover_of_tiledL _ S1024x16.size (by sl_kernel_rfl))).trans ?_
  unfold runLastL0
  dsimp only
  sl_unfold_words
  rw [View.canon_unit_zero (S := S1024x16) originZeroL0, View.readCov_unit_zero (S := S1024x16) _ originZeroL0]
  simp only [View.readAt_eq_ld, hadjM.read_unread, hfeatM.read_unread, hwM.read_unread, hbiasM.read_unread, haccM.read_unread,
    View.ld_unit_zero (S := S1024x2048) originZeroL0, View.ld_unit_zero (S := S2048x128) originZeroL0,
    View.ld_unit_zero (S := S128x16) originZeroL0, View.ld_unit_zero (S := S1x16) originZeroL0,
    View.ld_unit_zero (S := S1024x16) originZeroL0]

end Point

variable (V : (c : Dev nD) → (b : Ref sig .tc) → Buf (Elt F) ((c : Thread nD τ).loc b))

/-- The accumulator after point n: this point's product added to the reset value at k = 0, else to what point n - 1 left. -/
def accL0 (c : Dev nD) : (n : ℕ) → n < cfg0.N → Vec F S1024x16 .f32
  | 0, h => k0_pay2 (tileL0 V c 1 ⟨0, h⟩) (tileL0 V c 2 ⟨0, h⟩) (tileL0 V c 3 ⟨0, h⟩) (tileL0 V c 0 ⟨0, h⟩) k0_pay1
  | n + 1, h => k0_pay2 (tileL0 V c 1 ⟨n + 1, h⟩) (tileL0 V c 2 ⟨n + 1, h⟩) (tileL0 V c 3 ⟨n + 1, h⟩) (tileL0 V c 0 ⟨n + 1, h⟩)
      (if (n + 1) % 4 = 0 then k0_pay1 else accL0 c n (Nat.lt_of_succ_lt h))

/-- After point n: relu of the accumulator (what a last point stores to the output tile), and the accumulator. -/
def accAtL0 (c : Dev nD) (n : ℕ) (h : n < cfg0.N) : Vec F S1024x16 .f32 × Vec F S1024x16 .f32 :=
  (k0_pay3 (accL0 V c n h), accL0 V c n h)

theorem accAtL0_first (c : Dev nD) (t : Fin cfg0.N) (h : t.val % 4 = 0) :
    (accAtL0 V c t.val t.isLt).2 = k0_pay2 (tileL0 V c 1 t) (tileL0 V c 2 t) (tileL0 V c 3 t) (tileL0 V c 0 t) (k0_pay1 (F := F)) := by
  obtain ⟨n, hn⟩ := t
  cases n with
  | zero => rfl
  | succ n => show k0_pay2 _ _ _ _ (if (n + 1) % 4 = 0 then _ else _) = _; rw [if_pos h]

theorem accAtL0_next (c : Dev nD) (t : Fin cfg0.N) (h : ¬ t.val % 4 = 0) :
    (accAtL0 V c t.val t.isLt).2 = k0_pay2 (tileL0 V c 1 t) (tileL0 V c 2 t) (tileL0 V c 3 t) (tileL0 V c 0 t)
      (accAtL0 V c (t.val - 1) (Nat.lt_of_le_of_lt (Nat.sub_le _ _) t.isLt)).2 := by
  obtain ⟨n, hn⟩ := t
  cases n with
  | zero => exact absurd (Nat.zero_mod 4) h
  | succ n => show k0_pay2 _ _ _ _ (if (n + 1) % 4 = 0 then _ else _) = _; rw [if_neg h]; rfl

theorem accAtL0_out (c : Dev nD) (t : Fin cfg0.N) (h : t.val % 4 = 3) :
    (accAtL0 V c t.val t.isLt).1 = k0_pay3 (accAtL0 V c t.val t.isLt).2 := rfl

/-- Before position n: at n = 0 what the launch hands the layer, afterwards the accumulator at what point n - 1 left beside the rest. -/
def phiL0 (c : Dev nD) : (n : ℕ) → n ≤ cfg0.N → sProp 𝕄
  | 0, _ => Pipeline.ΦA spec0 c
  | n + 1, hn => iprop(iprop(owns (c : Thread nD τ) accRefL0 fullShare ((accAtL0 V c n hn).2) ∗ othersL0 c) ∗ (∃ r, prngReg c r))

theorem phiL0_pos (c : Dev nD) (n : ℕ) (h : n ≤ cfg0.N) (hz : n ≠ 0) :
    phiL0 V c n h = iprop(iprop(owns (c : Thread nD τ) accRefL0 fullShare ((accAtL0 V c (n - 1) (by omega)).2) ∗ othersL0 c) ∗ (∃ r, prngReg c r)) := by
  cases n with
  | zero => exact absurd rfl hz
  | succ n => rfl

/-- At every position the invariant holds the accumulator at some contents. -/
theorem phiL0_acc (c : Dev nD) (n : ℕ) (h : n ≤ cfg0.N) :
    phiL0 V c n h ⊢ iprop(iprop((∃ d, owns (c : Thread nD τ) accRefL0 fullShare d) ∗ othersL0 c) ∗ (∃ r, prngReg c r)) := by
  cases n with
  | zero =>
    show Pipeline.ΦA spec0 c ⊢ _
    rw [restL0_eq]
    try exact .rfl
  | succ n =>
    show iprop(iprop(owns (c : Thread nD τ) accRefL0 fullShare ((accAtL0 V c n h).2) ∗ othersL0 c) ∗ (∃ r, prngReg c r)) ⊢ _
    iintro ⟨⟨Hacc, Hoth⟩, Hg⟩
    isplitl [Hacc Hoth]
    · isplitl [Hacc]; · iexists _; iexact Hacc
      iexact Hoth
    iexact Hg

def datL0 (c : Dev nD) : Dat τ (Elt F) Unit ℕ (UR sig nD τ) ℕ cfg0 c where
  A w := V c (Pipeline.arrRef spec0 w)
  after w t := match w with
    | ⟨0, _⟩ => tileL0 V c 0 t
    | ⟨1, _⟩ => tileL0 V c 1 t
    | ⟨2, _⟩ => tileL0 V c 2 t
    | ⟨3, _⟩ => tileL0 V c 3 t
    | ⟨4, _⟩ => (accAtL0 V c t.val t.isLt).1
  Φ t := phiL0 V c t.val (Nat.le_of_lt_succ t.isLt)
  q _ := fullShare
  owed _ := 0

theorem datL0_A (c : Dev nD) (w : Fin cfg0.W) : (datL0 V c).A w = V c (Pipeline.arrRef spec0 w) := by dsimp only [datL0]
theorem datL0_after_4 (c : Dev nD) (t : Fin cfg0.N) : (datL0 V c).after 4 t = (accAtL0 V c t.val t.isLt).1 := by dsimp only [datL0]
theorem datL0_q (c : Dev nD) (w : Fin cfg0.W) : (datL0 V c).q w = fullShare := rfl
theorem datL0_owed (c : Dev nD) (t : Fin (cfg0.N + 1)) : (datL0 V c).owed t = 0 := rfl

theorem datL0_phi_begin (c : Dev nD) (t : Fin cfg0.N) :
    (datL0 V c).Φ t.castSucc = phiL0 V c t.val (Nat.le_of_lt t.isLt) := by
  dsimp only [datL0]; simp only [Fin.coe_castSucc]

theorem datL0_before_0 (c : Dev nD) (t : Fin cfg0.N) (d) : (datL0 V c).before 0 t d = tileL0 V c 0 t :=
  ((datL0 V c).before_in_eq_fetched 0 rfl (fun _ => rfl) (fun _ _ _ => rfl) (fun _ => rfl) t d).trans rfl
theorem datL0_before_1 (c : Dev nD) (t : Fin cfg0.N) (d) : (datL0 V c).before 1 t d = tileL0 V c 1 t :=
  ((datL0 V c).before_in_eq_fetched 1 rfl (fun _ => rfl) (fun _ _ _ => rfl) (fun _ => rfl) t d).trans rfl
theorem datL0_before_2 (c : Dev nD) (t : Fin cfg0.N) (d) : (datL0 V c).before 2 t d = tileL0 V c 2 t :=
  ((datL0 V c).before_in_eq_fetched 2 rfl (fun _ => rfl) (fun _ _ _ => rfl) (fun _ => rfl) t d).trans rfl
theorem datL0_before_3 (c : Dev nD) (t : Fin cfg0.N) (d) : (datL0 V c).before 3 t d = tileL0 V c 3 t :=
  ((datL0 V c).before_in_eq_fetched 3 rfl (fun _ => rfl) (fun _ _ _ => rfl) (fun _ => rfl) t d).trans rfl

theorem datL0_leaves_0 (c : Dev nD) (t : Fin cfg0.N) :
    (datL0 V c).leavesExact 0 t = owns (c : Thread nD τ) (stgL0_0 t) fullShare (tileL0 V c 0 t) := by
  unfold Dat.leavesExact; rw [in_liveL0 0 (by decide) _]; rfl
theorem datL0_leaves_1 (c : Dev nD) (t : Fin cfg0.N) :
    (datL0 V c).leavesExact 1 t = owns (c : Thread nD τ) (stgL0_1 t) fullShare (tileL0 V c 1 t) := by
  unfold Dat.leavesExact; rw [in_liveL0 1 (by decide) _]; rfl
theorem datL0_leaves_2 (c : Dev nD) (t : Fin cfg0.N) :
    (datL0 V c).leavesExact 2 t = owns (c : Thread nD τ) (stgL0_2 t) fullShare (tileL0 V c 2 t) := by
  unfold Dat.leavesExact; rw [in_liveL0 2 (by decide) _]; rfl
theorem datL0_leaves_3 (c : Dev nD) (t : Fin cfg0.N) :
    (datL0 V c).leavesExact 3 t = owns (c : Thread nD τ) (stgL0_3 t) fullShare (tileL0 V c 3 t) := by
  unfold Dat.leavesExact; rw [in_liveL0 3 (by decide) _]; rfl

def bodyPreL0 (c : Dev nD) (t : Fin cfg0.N) : sProp 𝕄 :=
  iprop((datL0 V c).Φ t.castSucc ∗ (datL0 V c).owesAt () t.castSucc
    ∗ (∃ d, owns (c : Thread nD τ) (stgL0_0 t) fullShare ((datL0 V c).before 0 t d))
    ∗ (∃ d, owns (c : Thread nD τ) (stgL0_1 t) fullShare ((datL0 V c).before 1 t d))
    ∗ (∃ d, owns (c : Thread nD τ) (stgL0_2 t) fullShare ((datL0 V c).before 2 t d))
    ∗ (∃ d, owns (c : Thread nD τ) (stgL0_3 t) fullShare ((datL0 V c).before 3 t d))
    ∗ (∃ d, owns (c : Thread nD τ) (stgL0_4 t) fullShare ((datL0 V c).before 4 t d)))

def bodyPostL0 (c : Dev nD) (t : Fin cfg0.N) : sProp 𝕄 :=
  iprop((datL0 V c).Φ t.succ ∗ (datL0 V c).owesAt () t.succ
    ∗ (datL0 V c).leavesExact 0 t ∗ (datL0 V c).leavesExact 1 t ∗ (datL0 V c).leavesExact 2 t
    ∗ (datL0 V c).leavesExact 3 t ∗ (datL0 V c).leavesExact 4 t)

set_option maxHeartbeats 4800000 in
/-- The body at any point: t mod 4 says which kind of point it is; the invariant hands the accumulator over and takes it
    back at this point's contents, and the output tile goes back untouched except at a last point. -/
theorem bodyL0 (c : Dev nD) (t : Fin cfg0.N) :
    bodyPreL0 V c t ⊢ wp frame (wpE (defs₀ (F := F)) Variants.none c none) Set.univ (bodyAt0 t) (fun _ => bodyPostL0 V c t) := by
  unfold bodyPreL0 bodyPostL0 bodyAt0
  simp only [datL0_before_0, datL0_before_1, datL0_before_2, datL0_before_3]
  rw [show (datL0 V c).owesAt () t.succ = (datL0 V c).owesAt () t.castSucc from rfl]
  rw [show (datL0 V c).Φ t.succ = iprop(iprop(owns (c : Thread nD τ) accRefL0 fullShare ((accAtL0 V c t.val t.isLt).2) ∗ othersL0 c) ∗ (∃ r, prngReg c r)) from rfl]
  rw [datL0_leaves_0, datL0_leaves_1, datL0_leaves_2, datL0_leaves_3, datL0_phi_begin V c t]
  have hN : t.val < 32 := lt_of_lt_of_eq t.isLt (show cfg0.N = 32 from N_0)
  by_cases h0 : t.val % 4 = 0
  · have hf : isFirstL0 (grid0.coords t) := (isFirstL0_iff t).mpr h0
    have hnl : ¬isLastL0 (grid0.coords t) := fun h => absurd ((isLastL0_iff t).mp h) (by omega)
    rw [Dat.leavesExact_idle (datL0 V c) 4 t (out_idleL0 t hnl) (out_unflushedL0 t hnl), accAtL0_first V c t h0]
    iintro ⟨Hphi, Ho, ⟨%d0, H0⟩, ⟨%d1, H1⟩, ⟨%d2, H2⟩, ⟨%d3, H3⟩, ⟨%d4, H4⟩⟩
    ihave Hparts := (phiL0_acc V c _ _) $$ Hphi
    icases Hparts with ⟨⟨Hacc, Hoth⟩, Hg⟩
    iapply ((runFirstL0 c (grid0.coords t) _ _ _ _ _ _ _ _ _ _ _ _ hf hnl (tileL0 V c 0 t) (tileL0 V c 1 t) (tileL0 V c 2 t) (tileL0 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL0 ..
    iexists _; iexact H4
  · have hnf : ¬isFirstL0 (grid0.coords t) := fun h => h0 ((isFirstL0_iff t).mp h)
    have hz : t.val ≠ 0 := fun h => h0 (by rw [h])
    rw [phiL0_pos V c _ _ hz, accAtL0_next V c t h0]
    by_cases h3 : t.val % 4 = 3
    · have hl : isLastL0 (grid0.coords t) := (isLastL0_iff t).mpr h3
      rw [show (datL0 V c).leavesExact 4 t = owns (c : Thread nD τ) (stgL0_4 t) fullShare ((datL0 V c).after 4 t) from by
        unfold Dat.leavesExact; rw [out_liveL0 t hl], datL0_after_4, accAtL0_out V c t h3, accAtL0_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL0 c (grid0.coords t) _ _ _ _ _ _ _ _ _ _ _ _ hnf hl (tileL0 V c 0 t) (tileL0 V c 1 t) (tileL0 V c 2 t) (tileL0 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL0 ..
      unfold owns; iexists _; isplitr
      swap; · iexact H4
      ipureintro; exact readLastOutL0 ..
    · have hnl : ¬isLastL0 (grid0.coords t) := fun h => h3 ((isLastL0_iff t).mp h)
      rw [Dat.leavesExact_idle (datL0 V c) 4 t (out_idleL0 t hnl) (out_unflushedL0 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL0 c (grid0.coords t) _ _ _ _ _ _ _ _ _ _ _ _ hnf hnl (tileL0 V c 0 t) (tileL0 V c 1 t) (tileL0 V c 2 t) (tileL0 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL0 ..
      iexists _; iexact H4

theorem body_obligationL0 (c : Dev nD) : BodyObligation (datL0 (F := F) V c) (defs₀ (F := F)) Variants.none () Set.univ := fun t => by
  rw [bigSep_W0, bigSep_W0]
  exact bodyL0 V c t

theorem phiL0_in (c : Dev nD) : Pipeline.ΦA spec0 c ⊢ (datL0 V c).Φ 0 := by
  show _ ⊢ phiL0 V c 0 (Nat.zero_le _)
  exact .rfl

/-- After the last point the invariant gives back what the launch handed over, the accumulator's contents forgotten. -/
theorem phiL0_out (c : Dev nD) : (datL0 V c).Φ (Fin.last cfg0.N) ⊢ Pipeline.ΦA spec0 c := by
  rw [restL0_eq]
  exact phiL0_acc V c cfg0.N (Nat.le_refl _)

end Cert.KernelIdeal.Gcn

end
-- ==== Proof.KI.L1Setup.lean ====
import proofs.«114493_j18348100288854_1_alg».proof.Proof.Gen.KernelIdeal.Launch
import proofs.«114493_j18348100288854_1_alg».proof.Proof.Gen.KernelIdeal.Skeleton
import proofs.«114493_j18348100288854_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- k = 0: the accumulator is reset. -/
abbrev isFirstL1 (i : grid1.Coords) : Prop := (Scalar.cmpi .ne (Scalar.extui (Scalar.cmpi .eq (BitVec.ofNat 32 (i 1).val) 0#32)) 0#32) = 1#1
theorem isFirstL1_iff : ∀ t : Fin cfg1.N, isFirstL1 (grid1.coords t) ↔ t.val % 4 = 0 :=
  (by decide +kernel : ∀ t : Fin grid1.N, isFirstL1 (grid1.coords t) ↔ t.val % 4 = 0)

/-- k = 3: the output tile is written. -/
abbrev isLastL1 (i : grid1.Coords) : Prop := k1_cond2 i = 1#1
theorem isLastL1_iff : ∀ t : Fin cfg1.N, isLastL1 (grid1.coords t) ↔ t.val % 4 = 3 :=
  (by decide +kernel : ∀ t : Fin grid1.N, isLastL1 (grid1.coords t) ↔ t.val % 4 = 3)

theorem out_idleL1 : ∀ t : Fin cfg1.N, ¬isLastL1 (grid1.coords t) → cfg1.idle 4 (grid1.coords t) = true := by decide +kernel
theorem out_unflushedL1 : ∀ t : Fin cfg1.N, ¬isLastL1 (grid1.coords t) → (cfg1.win 4).flush t = false := by decide +kernel
theorem out_liveL1 : ∀ t : Fin cfg1.N, isLastL1 (grid1.coords t) → cfg1.idle 4 (grid1.coords t) = false := by decide +kernel
theorem in_liveL1 : ∀ (w : Fin cfg1.W), w ≠ 4 → ∀ i, cfg1.idle w i = false := by
  intro w hw i; fin_cases w <;> first | rfl | exact absurd rfl hw

abbrev stgL1_0 (t : Fin cfg1.N) : Memref sig .tc .vmem S1024x2048 .f32 := win1_0.stage (cfg1.slots t 0)
abbrev stgL1_1 (t : Fin cfg1.N) : Memref sig .tc .vmem S2048x16 .f32 := win1_1.stage (cfg1.slots t 1)
abbrev stgL1_2 (t : Fin cfg1.N) : Memref sig .tc .vmem S16x32 .f32 := win1_2.stage (cfg1.slots t 2)
abbrev stgL1_3 (t : Fin cfg1.N) : Memref sig .tc .vmem S1x32 .f32 := win1_3.stage (cfg1.slots t 3)
abbrev stgL1_4 (t : Fin cfg1.N) : Memref sig .tc .vmem S1024x32 .f32 := win1_4.stage (cfg1.slots t 4)

abbrev accRefL1 : Memref sig .tc .vmem S1024x32 .f32 := Memref.whole cc1_scratch0

abbrev othersL1 (c : Dev nD) : sProp 𝕄 :=
  Pipeline.scopedRestBut (Ix := Unit) (Name := ℕ) (U := UR sig nD τ) (Lvl := ℕ) (Val := Elt F) spec1 c [cc1_scratch0]

theorem restL1_eq (c : Dev nD) :
    (Pipeline.ΦA spec1 c : sProp 𝕄)
      = iprop(iprop((∃ d, owns (c : Thread nD τ) accRefL1 fullShare d) ∗ othersL1 c) ∗ (∃ r, prngReg c r)) := by
  unfold Pipeline.ΦA
  rw [Pipeline.scopedRest_split_of_list spec1 c [cc1_scratch0] (by decide) (by decide)]
  simp only [accRefL1, owns_whole, othersL1, bigSepL]
  try rfl

end Cert.KernelIdeal.Gcn

end
-- ==== Proof.KI.L1RunFirst.lean ====
import proofs.«114493_j18348100288854_1_alg».proof.Proof.KI.L1Setup

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : isFirstL1 i) (hlast : ¬isLastL1 i) (adj : Vec F S1024x2048 .f32) (feat : Vec F S2048x16 .f32) (wts : Vec F S16x32 .f32) (bias : Vec F S1x32 .f32) :
    { accPieces : List (View.Piece (Elt F) S1024x32 .f32) //
      ∀ (out : Vec F S1024x32 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, fun out E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L1RunMid.lean ====
import proofs.«114493_j18348100288854_1_alg».proof.Proof.KI.L1RunFirst

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : ¬isFirstL1 i) (hlast : ¬isLastL1 i) (adj : Vec F S1024x2048 .f32) (feat : Vec F S2048x16 .f32) (wts : Vec F S16x32 .f32) (bias : Vec F S1x32 .f32) (acc : Vec F S1024x32 .f32) :
    { accPieces : List (View.Piece (Elt F) S1024x32 .f32) //
      ∀ (out : Vec F S1024x32 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, fun out E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L1RunLast.lean ====
import proofs.«114493_j18348100288854_1_alg».proof.Proof.KI.L1RunMid

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL1 (c : Dev nD) (i : grid1.Coords)
    (adjM : Memref sig .tc .vmem S1024x2048 .f32) (hadjM : adjM.IsWhole)
    (featM : Memref sig .tc .vmem S2048x16 .f32) (hfeatM : featM.IsWhole)
    (wM : Memref sig .tc .vmem S16x32 .f32) (hwM : wM.IsWhole)
    (biasM : Memref sig .tc .vmem S1x32 .f32) (hbiasM : biasM.IsWhole)
    (outM : Memref sig .tc .vmem S1024x32 .f32) (houtM : outM.IsWhole)
    (accM : Memref sig .tc .vmem S1024x32 .f32) (haccM : accM.IsWhole)
    (hfirst : ¬isFirstL1 i) (hlast : isLastL1 i) (adj : Vec F S1024x2048 .f32) (feat : Vec F S2048x16 .f32) (wts : Vec F S16x32 .f32) (bias : Vec F S1x32 .f32) (acc : Vec F S1024x32 .f32) :
    Σ' (outPieces : List (View.Piece (Elt F) S1024x32 .f32)), { accPieces : List (View.Piece (Elt F) S1024x32 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc1__gcn_layer_kernel i adjM hadjM featM hfeatM wM hwM biasM hbiasM outM houtM accM haccM) K } := by
  refine ⟨?_, ?_, fun E K => ?run⟩
  case run =>
    simp only [cc1__gcn_layer_kernel_eq_skeleton]; unfold cc1__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.KernelIdeal.Gcn

end
-- ==== Proof.KI.L1Body.lean ====
import proofs.«114493_j18348100288854_1_alg».proof.Proof.KI.L1RunLast
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem originZeroL1 : (![0, 0] : Fin 2 → Nat) = fun _ => 0 := funext fun a => by fin_cases a <;> rfl

section Point

variable (c : Dev nD) (i : grid1.Coords)
  (adjM : Memref sig .tc .vmem S1024x2048 .f32) (hadjM : adjM.IsWhole)
  (featM : Memref sig .tc .vmem S2048x16 .f32) (hfeatM : featM.IsWhole)
  (wM : Memref sig .tc .vmem S16x32 .f32) (hwM : wM.IsWhole)
  (biasM : Memref sig .tc .vmem S1x32 .f32) (hbiasM : biasM.IsWhole)
  (outM : Memref sig .tc .vmem S1024x32 .f32) (houtM : outM.IsWhole)
  (accM : Memref sig .tc .vmem S1024x32 .f32) (haccM : accM.IsWhole)
  (adj : Vec F S1024x2048 .f32) (feat : Vec F S2048x16 .f32) (wts : Vec F S16x32 .f32) (bias : Vec F S1x32 .f32)
  (acc : Vec F S1024x32 .f32)

/-- The stores of a point tile the buffer they go to, so over any contents it reads back as the last store's payload. -/
theorem readFirstL1 (hfirst : isFirstL1 i) (hlast : ¬isLastL1 i) (f) :
    accM.view.read (Elt F) (accM.view.writes (Elt F) f (runFirstL1 c i adjM hadjM featM hfeatM wM hwM biasM hbiasM outM houtM accM haccM hfirst hlast adj feat wts bias).1)
      = k1_pay2 feat wts bias adj (k1_pay1 (F := F)) := by
  refine (View.read_writes_eq_canon _ _ _ (View.cover_of_tiledL _ S1024x32.size (by sl_kernel_rfl))).trans ?_
  unfold runFirstL1
  dsimp only
  sl_unfold_words
  rw [View.canon_cons_unit_zero (S := S1024x32) originZeroL1, View.readCov_unit_zero (S := S1024x32) _ originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readMidL1 (hfirst : ¬isFirstL1 i) (hlast : ¬isLastL1 i) (f) :
    accM.view.read (Elt F) (accM.view.writes (Elt F) f (runMidL1 c i adjM hadjM featM hfeatM wM hwM biasM hbiasM outM houtM accM haccM hfirst hlast adj feat wts bias acc).1)
      = k1_pay2 feat wts bias adj acc := by
  refine (View.read_writes_eq_canon _ _ _ (View.cover_of_tiledL _ S1024x32.size (by sl_kernel_rfl))).trans ?_
  unfold runMidL1
  dsimp only
  sl_unfold_words
  rw [View.canon_unit_zero (S := S1024x32) originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readLastAccL1 (hfirst : ¬isFirstL1 i) (hlast : isLastL1 i) (f) :
    accM.view.read (Elt F) (accM.view.writes (Elt F) f (runLastL1 c i adjM hadjM featM hfeatM wM hwM biasM hbiasM outM houtM accM haccM hfirst hlast adj feat wts bias acc).2.1)
      = k1_pay2 feat wts bias adj acc := by
  refine (View.read_writes_eq_canon _ _ _ (View.cover_of_tiledL _ S1024x32.size (by sl_kernel_rfl))).trans ?_
  unfold runLastL1
  dsimp only
  sl_unfold_words
  rw [View.canon_unit_zero (S := S1024x32) originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

theorem readLastOutL1 (hfirst : ¬isFirstL1 i) (hlast : isLastL1 i) (f) :
    outM.view.read (Elt F) (outM.view.writes (Elt F) f (runLastL1 c i adjM hadjM featM hfeatM wM hwM biasM hbiasM outM houtM accM haccM hfirst hlast adj feat wts bias acc).1)
      = k1_pay3 (k1_pay2 feat wts bias adj acc) := by
  refine (View.read_writes_eq_canon _ _ _ (View.cover_of_tiledL _ S1024x32.size (by sl_kernel_rfl))).trans ?_
  unfold runLastL1
  dsimp only
  sl_unfold_words
  rw [View.canon_unit_zero (S := S1024x32) originZeroL1, View.readCov_unit_zero (S := S1024x32) _ originZeroL1]
  simp only [View.readAt_eq_ld, hadjM.read_unread, hfeatM.read_unread, hwM.read_unread, hbiasM.read_unread, haccM.read_unread,
    View.ld_unit_zero (S := S1024x2048) originZeroL1, View.ld_unit_zero (S := S2048x16) originZeroL1,
    View.ld_unit_zero (S := S16x32) originZeroL1, View.ld_unit_zero (S := S1x32) originZeroL1,
    View.ld_unit_zero (S := S1024x32) originZeroL1]

end Point

variable (V : (c : Dev nD) → (b : Ref sig .tc) → Buf (Elt F) ((c : Thread nD τ).loc b))

/-- The accumulator after point n: this point's product added to the reset value at k = 0, else to what point n - 1 left. -/
def accL1 (c : Dev nD) : (n : ℕ) → n < cfg1.N → Vec F S1024x32 .f32
  | 0, h => k1_pay2 (tileL1 V c 1 ⟨0, h⟩) (tileL1 V c 2 ⟨0, h⟩) (tileL1 V c 3 ⟨0, h⟩) (tileL1 V c 0 ⟨0, h⟩) k1_pay1
  | n + 1, h => k1_pay2 (tileL1 V c 1 ⟨n + 1, h⟩) (tileL1 V c 2 ⟨n + 1, h⟩) (tileL1 V c 3 ⟨n + 1, h⟩) (tileL1 V c 0 ⟨n + 1, h⟩)
      (if (n + 1) % 4 = 0 then k1_pay1 else accL1 c n (Nat.lt_of_succ_lt h))

/-- After point n: relu of the accumulator (what a last point stores to the output tile), and the accumulator. -/
def accAtL1 (c : Dev nD) (n : ℕ) (h : n < cfg1.N) : Vec F S1024x32 .f32 × Vec F S1024x32 .f32 :=
  (k1_pay3 (accL1 V c n h), accL1 V c n h)

theorem accAtL1_first (c : Dev nD) (t : Fin cfg1.N) (h : t.val % 4 = 0) :
    (accAtL1 V c t.val t.isLt).2 = k1_pay2 (tileL1 V c 1 t) (tileL1 V c 2 t) (tileL1 V c 3 t) (tileL1 V c 0 t) (k1_pay1 (F := F)) := by
  obtain ⟨n, hn⟩ := t
  cases n with
  | zero => rfl
  | succ n => show k1_pay2 _ _ _ _ (if (n + 1) % 4 = 0 then _ else _) = _; rw [if_pos h]

theorem accAtL1_next (c : Dev nD) (t : Fin cfg1.N) (h : ¬ t.val % 4 = 0) :
    (accAtL1 V c t.val t.isLt).2 = k1_pay2 (tileL1 V c 1 t) (tileL1 V c 2 t) (tileL1 V c 3 t) (tileL1 V c 0 t)
      (accAtL1 V c (t.val - 1) (Nat.lt_of_le_of_lt (Nat.sub_le _ _) t.isLt)).2 := by
  obtain ⟨n, hn⟩ := t
  cases n with
  | zero => exact absurd (Nat.zero_mod 4) h
  | succ n => show k1_pay2 _ _ _ _ (if (n + 1) % 4 = 0 then _ else _) = _; rw [if_neg h]; rfl

theorem accAtL1_out (c : Dev nD) (t : Fin cfg1.N) (h : t.val % 4 = 3) :
    (accAtL1 V c t.val t.isLt).1 = k1_pay3 (accAtL1 V c t.val t.isLt).2 := rfl

/-- Before position n: at n = 0 what the launch hands the layer, afterwards the accumulator at what point n - 1 left beside the rest. -/
def phiL1 (c : Dev nD) : (n : ℕ) → n ≤ cfg1.N → sProp 𝕄
  | 0, _ => Pipeline.ΦA spec1 c
  | n + 1, hn => iprop(iprop(owns (c : Thread nD τ) accRefL1 fullShare ((accAtL1 V c n hn).2) ∗ othersL1 c) ∗ (∃ r, prngReg c r))

theorem phiL1_pos (c : Dev nD) (n : ℕ) (h : n ≤ cfg1.N) (hz : n ≠ 0) :
    phiL1 V c n h = iprop(iprop(owns (c : Thread nD τ) accRefL1 fullShare ((accAtL1 V c (n - 1) (by omega)).2) ∗ othersL1 c) ∗ (∃ r, prngReg c r)) := by
  cases n with
  | zero => exact absurd rfl hz
  | succ n => rfl

/-- At every position the invariant holds the accumulator at some contents. -/
theorem phiL1_acc (c : Dev nD) (n : ℕ) (h : n ≤ cfg1.N) :
    phiL1 V c n h ⊢ iprop(iprop((∃ d, owns (c : Thread nD τ) accRefL1 fullShare d) ∗ othersL1 c) ∗ (∃ r, prngReg c r)) := by
  cases n with
  | zero =>
    show Pipeline.ΦA spec1 c ⊢ _
    rw [restL1_eq]
    try exact .rfl
  | succ n =>
    show iprop(iprop(owns (c : Thread nD τ) accRefL1 fullShare ((accAtL1 V c n h).2) ∗ othersL1 c) ∗ (∃ r, prngReg c r)) ⊢ _
    iintro ⟨⟨Hacc, Hoth⟩, Hg⟩
    isplitl [Hacc Hoth]
    · isplitl [Hacc]; · iexists _; iexact Hacc
      iexact Hoth
    iexact Hg

def datL1 (c : Dev nD) : Dat τ (Elt F) Unit ℕ (UR sig nD τ) ℕ cfg1 c where
  A w := V c (Pipeline.arrRef spec1 w)
  after w t := match w with
    | ⟨0, _⟩ => tileL1 V c 0 t
    | ⟨1, _⟩ => tileL1 V c 1 t
    | ⟨2, _⟩ => tileL1 V c 2 t
    | ⟨3, _⟩ => tileL1 V c 3 t
    | ⟨4, _⟩ => (accAtL1 V c t.val t.isLt).1
  Φ t := phiL1 V c t.val (Nat.le_of_lt_succ t.isLt)
  q _ := fullShare
  owed _ := 0

theorem datL1_A (c : Dev nD) (w : Fin cfg1.W) : (datL1 V c).A w = V c (Pipeline.arrRef spec1 w) := by dsimp only [datL1]
theorem datL1_after_4 (c : Dev nD) (t : Fin cfg1.N) : (datL1 V c).after 4 t = (accAtL1 V c t.val t.isLt).1 := by dsimp only [datL1]
theorem datL1_q (c : Dev nD) (w : Fin cfg1.W) : (datL1 V c).q w = fullShare := rfl
theorem datL1_owed (c : Dev nD) (t : Fin (cfg1.N + 1)) : (datL1 V c).owed t = 0 := rfl

theorem datL1_phi_begin (c : Dev nD) (t : Fin cfg1.N) :
    (datL1 V c).Φ t.castSucc = phiL1 V c t.val (Nat.le_of_lt t.isLt) := by
  dsimp only [datL1]; simp only [Fin.coe_castSucc]

theorem datL1_before_0 (c : Dev nD) (t : Fin cfg1.N) (d) : (datL1 V c).before 0 t d = tileL1 V c 0 t :=
  ((datL1 V c).before_in_eq_fetched 0 rfl (fun _ => rfl) (fun _ _ _ => rfl) (fun _ => rfl) t d).trans rfl
theorem datL1_before_1 (c : Dev nD) (t : Fin cfg1.N) (d) : (datL1 V c).before 1 t d = tileL1 V c 1 t :=
  ((datL1 V c).before_in_eq_fetched 1 rfl (fun _ => rfl) (fun _ _ _ => rfl) (fun _ => rfl) t d).trans rfl
theorem datL1_before_2 (c : Dev nD) (t : Fin cfg1.N) (d) : (datL1 V c).before 2 t d = tileL1 V c 2 t :=
  ((datL1 V c).before_in_eq_fetched 2 rfl (fun _ => rfl) (fun _ _ _ => rfl) (fun _ => rfl) t d).trans rfl
theorem datL1_before_3 (c : Dev nD) (t : Fin cfg1.N) (d) : (datL1 V c).before 3 t d = tileL1 V c 3 t :=
  ((datL1 V c).before_in_eq_fetched 3 rfl (fun _ => rfl) (fun _ _ _ => rfl) (fun _ => rfl) t d).trans rfl

theorem datL1_leaves_0 (c : Dev nD) (t : Fin cfg1.N) :
    (datL1 V c).leavesExact 0 t = owns (c : Thread nD τ) (stgL1_0 t) fullShare (tileL1 V c 0 t) := by
  unfold Dat.leavesExact; rw [in_liveL1 0 (by decide) _]; rfl
theorem datL1_leaves_1 (c : Dev nD) (t : Fin cfg1.N) :
    (datL1 V c).leavesExact 1 t = owns (c : Thread nD τ) (stgL1_1 t) fullShare (tileL1 V c 1 t) := by
  unfold Dat.leavesExact; rw [in_liveL1 1 (by decide) _]; rfl
theorem datL1_leaves_2 (c : Dev nD) (t : Fin cfg1.N) :
    (datL1 V c).leavesExact 2 t = owns (c : Thread nD τ) (stgL1_2 t) fullShare (tileL1 V c 2 t) := by
  unfold Dat.leavesExact; rw [in_liveL1 2 (by decide) _]; rfl
theorem datL1_leaves_3 (c : Dev nD) (t : Fin cfg1.N) :
    (datL1 V c).leavesExact 3 t = owns (c : Thread nD τ) (stgL1_3 t) fullShare (tileL1 V c 3 t) := by
  unfold Dat.leavesExact; rw [in_liveL1 3 (by decide) _]; rfl

def bodyPreL1 (c : Dev nD) (t : Fin cfg1.N) : sProp 𝕄 :=
  iprop((datL1 V c).Φ t.castSucc ∗ (datL1 V c).owesAt () t.castSucc
    ∗ (∃ d, owns (c : Thread nD τ) (stgL1_0 t) fullShare ((datL1 V c).before 0 t d))
    ∗ (∃ d, owns (c : Thread nD τ) (stgL1_1 t) fullShare ((datL1 V c).before 1 t d))
    ∗ (∃ d, owns (c : Thread nD τ) (stgL1_2 t) fullShare ((datL1 V c).before 2 t d))
    ∗ (∃ d, owns (c : Thread nD τ) (stgL1_3 t) fullShare ((datL1 V c).before 3 t d))
    ∗ (∃ d, owns (c : Thread nD τ) (stgL1_4 t) fullShare ((datL1 V c).before 4 t d)))

def bodyPostL1 (c : Dev nD) (t : Fin cfg1.N) : sProp 𝕄 :=
  iprop((datL1 V c).Φ t.succ ∗ (datL1 V c).owesAt () t.succ
    ∗ (datL1 V c).leavesExact 0 t ∗ (datL1 V c).leavesExact 1 t ∗ (datL1 V c).leavesExact 2 t
    ∗ (datL1 V c).leavesExact 3 t ∗ (datL1 V c).leavesExact 4 t)

set_option maxHeartbeats 4800000 in
/-- The body at any point: t mod 4 says which kind of point it is; the invariant hands the accumulator over and takes it
    back at this point's contents, and the output tile goes back untouched except at a last point. -/
theorem bodyL1 (c : Dev nD) (t : Fin cfg1.N) :
    bodyPreL1 V c t ⊢ wp frame (wpE (defs₀ (F := F)) Variants.none c none) Set.univ (bodyAt1 t) (fun _ => bodyPostL1 V c t) := by
  unfold bodyPreL1 bodyPostL1 bodyAt1
  simp only [datL1_before_0, datL1_before_1, datL1_before_2, datL1_before_3]
  rw [show (datL1 V c).owesAt () t.succ = (datL1 V c).owesAt () t.castSucc from rfl]
  rw [show (datL1 V c).Φ t.succ = iprop(iprop(owns (c : Thread nD τ) accRefL1 fullShare ((accAtL1 V c t.val t.isLt).2) ∗ othersL1 c) ∗ (∃ r, prngReg c r)) from rfl]
  rw [datL1_leaves_0, datL1_leaves_1, datL1_leaves_2, datL1_leaves_3, datL1_phi_begin V c t]
  have hN : t.val < 32 := lt_of_lt_of_eq t.isLt (show cfg1.N = 32 from N_1)
  by_cases h0 : t.val % 4 = 0
  · have hf : isFirstL1 (grid1.coords t) := (isFirstL1_iff t).mpr h0
    have hnl : ¬isLastL1 (grid1.coords t) := fun h => absurd ((isLastL1_iff t).mp h) (by omega)
    rw [Dat.leavesExact_idle (datL1 V c) 4 t (out_idleL1 t hnl) (out_unflushedL1 t hnl), accAtL1_first V c t h0]
    iintro ⟨Hphi, Ho, ⟨%d0, H0⟩, ⟨%d1, H1⟩, ⟨%d2, H2⟩, ⟨%d3, H3⟩, ⟨%d4, H4⟩⟩
    ihave Hparts := (phiL1_acc V c _ _) $$ Hphi
    icases Hparts with ⟨⟨Hacc, Hoth⟩, Hg⟩
    iapply ((runFirstL1 c (grid1.coords t) _ _ _ _ _ _ _ _ _ _ _ _ hf hnl (tileL1 V c 0 t) (tileL1 V c 1 t) (tileL1 V c 2 t) (tileL1 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL1 ..
    iexists _; iexact H4
  · have hnf : ¬isFirstL1 (grid1.coords t) := fun h => h0 ((isFirstL1_iff t).mp h)
    have hz : t.val ≠ 0 := fun h => h0 (by rw [h])
    rw [phiL1_pos V c _ _ hz, accAtL1_next V c t h0]
    by_cases h3 : t.val % 4 = 3
    · have hl : isLastL1 (grid1.coords t) := (isLastL1_iff t).mpr h3
      rw [show (datL1 V c).leavesExact 4 t = owns (c : Thread nD τ) (stgL1_4 t) fullShare ((datL1 V c).after 4 t) from by
        unfold Dat.leavesExact; rw [out_liveL1 t hl], datL1_after_4, accAtL1_out V c t h3, accAtL1_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL1 c (grid1.coords t) _ _ _ _ _ _ _ _ _ _ _ _ hnf hl (tileL1 V c 0 t) (tileL1 V c 1 t) (tileL1 V c 2 t) (tileL1 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL1 ..
      unfold owns; iexists _; isplitr
      swap; · iexact H4
      ipureintro; exact readLastOutL1 ..
    · have hnl : ¬isLastL1 (grid1.coords t) := fun h => h3 ((isLastL1_iff t).mp h)
      rw [Dat.leavesExact_idle (datL1 V c) 4 t (out_idleL1 t hnl) (out_unflushedL1 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL1 c (grid1.coords t) _ _ _ _ _ _ _ _ _ _ _ _ hnf hnl (tileL1 V c 0 t) (tileL1 V c 1 t) (tileL1 V c 2 t) (tileL1 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL1 ..
      iexists _; iexact H4

theorem body_obligationL1 (c : Dev nD) : BodyObligation (datL1 (F := F) V c) (defs₀ (F := F)) Variants.none () Set.univ := fun t => by
  rw [bigSep_W1, bigSep_W1]
  exact bodyL1 V c t

theorem phiL1_in (c : Dev nD) : Pipeline.ΦA spec1 c ⊢ (datL1 V c).Φ 0 := by
  show _ ⊢ phiL1 V c 0 (Nat.zero_le _)
  exact .rfl

/-- After the last point the invariant gives back what the launch handed over, the accumulator's contents forgotten. -/
theorem phiL1_out (c : Dev nD) : (datL1 V c).Φ (Fin.last cfg1.N) ⊢ Pipeline.ΦA spec1 c := by
  rw [restL1_eq]
  exact phiL1_acc V c cfg1.N (Nat.le_refl _)

end Cert.KernelIdeal.Gcn

end
-- ==== Proof.KI.L2Setup.lean ====
import proofs.«114493_j18348100288854_1_alg».proof.Proof.Gen.KernelIdeal.Launch
import proofs.«114493_j18348100288854_1_alg».proof.Proof.Gen.KernelIdeal.Skeleton
import proofs.«114493_j18348100288854_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Tile w of point t: that block of array w, the array as the layer finds it. -/
def tileL2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- k = 0: the accumulator is reset. -/
abbrev isFirstL2 (i : grid2.Coords) : Prop := (Scalar.cmpi .ne (Scalar.extui (Scalar.cmpi .eq (BitVec.ofNat 32 (i 1).val) 0#32)) 0#32) = 1#1
theorem isFirstL2_iff : ∀ t : Fin cfg2.N, isFirstL2 (grid2.coords t) ↔ t.val % 4 = 0 :=
  (by decide +kernel : ∀ t : Fin grid2.N, isFirstL2 (grid2.coords t) ↔ t.val % 4 = 0)

/-- k = 3: the output tile is written. -/
abbrev isLastL2 (i : grid2.Coords) : Prop := k2_cond2 i = 1#1
theorem isLastL2_iff : ∀ t : Fin cfg2.N, isLastL2 (grid2.coords t) ↔ t.val % 4 = 3 :=
  (by decide +kernel : ∀ t : Fin grid2.N, isLastL2 (grid2.coords t) ↔ t.val % 4 = 3)

theorem out_idleL2 : ∀ t : Fin cfg2.N, ¬isLastL2 (grid2.coords t) → cfg2.idle 4 (grid2.coords t) = true := by decide +kernel
theorem out_unflushedL2 : ∀ t : Fin cfg2.N, ¬isLastL2 (grid2.coords t) → (cfg2.win 4).flush t = false := by decide +kernel
theorem out_liveL2 : ∀ t : Fin cfg2.N, isLastL2 (grid2.coords t) → cfg2.idle 4 (grid2.coords t) = false := by decide +kernel
theorem in_liveL2 : ∀ (w : Fin cfg2.W), w ≠ 4 → ∀ i, cfg2.idle w i = false := by
  intro w hw i; fin_cases w <;> first | rfl | exact absurd rfl hw

abbrev stgL2_0 (t : Fin cfg2.N) : Memref sig .tc .vmem S1024x2048 .f32 := win2_0.stage (cfg2.slots t 0)
abbrev stgL2_1 (t : Fin cfg2.N) : Memref sig .tc .vmem S2048x32 .f32 := win2_1.stage (cfg2.slots t 1)
abbrev stgL2_2 (t : Fin cfg2.N) : Memref sig .tc .vmem S32x64 .f32 := win2_2.stage (cfg2.slots t 2)
abbrev stgL2_3 (t : Fin cfg2.N) : Memref sig .tc .vmem S1x64 .f32 := win2_3.stage (cfg2.slots t 3)
abbrev stgL2_4 (t : Fin cfg2.N) : Memref sig .tc .vmem S1024x64 .f32 := win2_4.stage (cfg2.slots t 4)

abbrev accRefL2 : Memref sig .tc .vmem S1024x64 .f32 := Memref.whole cc2_scratch0

abbrev othersL2 (c : Dev nD) : sProp 𝕄 :=
  Pipeline.scopedRestBut (Ix := Unit) (Name := ℕ) (U := UR sig nD τ) (Lvl := ℕ) (Val := Elt F) spec2 c [cc2_scratch0]

theorem restL2_eq (c : Dev nD) :
    (Pipeline.ΦA spec2 c : sProp 𝕄)
      = iprop(iprop((∃ d, owns (c : Thread nD τ) accRefL2 fullShare d) ∗ othersL2 c) ∗ (∃ r, prngReg c r)) := by
  unfold Pipeline.ΦA
  rw [Pipeline.scopedRest_split_of_list spec2 c [cc2_scratch0] (by decide) (by decide)]
  simp only [accRefL2, owns_whole, othersL2, bigSepL]
  try rfl

end Cert.KernelIdeal.Gcn

end
-- ==== Proof.KI.L2RunFirst.lean ====
import proofs.«114493_j18348100288854_1_alg».proof.Proof.KI.L2Setup

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A first point (k = 0): the accumulator, whatever it held, is reset and this tile's product added; the pieces the stores leave are the first component. -/
noncomputable def runFirstL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : isFirstL2 i) (hlast : ¬isLastL2 i) (adj : Vec F S1024x2048 .f32) (feat : Vec F S2048x32 .f32) (wts : Vec F S32x64 .f32) (bias : Vec F S1x64 .f32) :
    { accPieces : List (View.Piece (Elt F) S1024x64 .f32) //
      ∀ (out : Vec F S1024x64 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ (∃ d, owns (c : Thread nD τ) accM fullShare d)
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, fun out E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%dacc, %facc, -, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L2RunMid.lean ====
import proofs.«114493_j18348100288854_1_alg».proof.Proof.KI.L2RunFirst

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A middle point (k = 1, 2): this tile's product is added to what the accumulator held. -/
noncomputable def runMidL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : ¬isFirstL2 i) (hlast : ¬isLastL2 i) (adj : Vec F S1024x2048 .f32) (feat : Vec F S2048x32 .f32) (wts : Vec F S32x64 .f32) (bias : Vec F S1x64 .f32) (acc : Vec F S1024x64 .f32) :
    { accPieces : List (View.Piece (Elt F) S1024x64 .f32) //
      ∀ (out : Vec F S1024x64 .f32) (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias ∗ owns (c : Thread nD τ) outM fullShare out
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, fun out E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%fout, %hfout, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := houtM.eq_unread hfout; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]
    · iexists _; isplitr; · ipureintro; exact houtM.read_unread _
      iexact Hout
    iexists _; iexact Hacc

end Cert.KernelIdeal.Gcn

end
-- ==== Proof.KI.L2RunLast.lean ====
import proofs.«114493_j18348100288854_1_alg».proof.Proof.KI.L2RunMid

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Cert.KernelIdeal Cert.KernelIdeal.Gen

variable {F : FTy → Type} [FloatOps F]

local notation "𝕄" => MT nD τ sig Unit (Elt F) ℕ (UR sig nD τ) ℕ

set_option maxHeartbeats 1000000 in
/-- A last point (k = 3): the product is added and relu of the sum stored over the output tile, whatever that held. -/
noncomputable def runLastL2 (c : Dev nD) (i : grid2.Coords)
    (adjM : Memref sig .tc .vmem S1024x2048 .f32) (hadjM : adjM.IsWhole)
    (featM : Memref sig .tc .vmem S2048x32 .f32) (hfeatM : featM.IsWhole)
    (wM : Memref sig .tc .vmem S32x64 .f32) (hwM : wM.IsWhole)
    (biasM : Memref sig .tc .vmem S1x64 .f32) (hbiasM : biasM.IsWhole)
    (outM : Memref sig .tc .vmem S1024x64 .f32) (houtM : outM.IsWhole)
    (accM : Memref sig .tc .vmem S1024x64 .f32) (haccM : accM.IsWhole)
    (hfirst : ¬isFirstL2 i) (hlast : isLastL2 i) (adj : Vec F S1024x2048 .f32) (feat : Vec F S2048x32 .f32) (wts : Vec F S32x64 .f32) (bias : Vec F S1x64 .f32) (acc : Vec F S1024x64 .f32) :
    Σ' (outPieces : List (View.Piece (Elt F) S1024x64 .f32)), { accPieces : List (View.Piece (Elt F) S1024x64 .f32) //
      ∀ (E : Set ℕ) (K : PUnit → sProp 𝕄),
        iprop(owns (c : Thread nD τ) adjM fullShare adj ∗ owns (c : Thread nD τ) featM fullShare feat ∗ owns (c : Thread nD τ) wM fullShare wts ∗ owns (c : Thread nD τ) biasM fullShare bias ∗ (∃ d, owns (c : Thread nD τ) outM fullShare d) ∗ owns (c : Thread nD τ) accM fullShare acc
            ∗ (iprop(owns (c : Thread nD τ) adjM fullShare adj ∗ owns (c : Thread nD τ) featM fullShare feat ∗ owns (c : Thread nD τ) wM fullShare wts ∗ owns (c : Thread nD τ) biasM fullShare bias
                ∗ (∃ f, outM.view.loc (c : Thread nD τ) ↦[outM.view.set]{fullShare} outM.view.writes (Elt F) f outPieces)
                ∗ (∃ f, accM.view.loc (c : Thread nD τ) ↦[accM.view.set]{fullShare} accM.view.writes (Elt F) f accPieces)) -∗ K ⟨⟩))
          ⊢ wp frame (wpE (defs₀ (F := F)) Variants.none c none) E (cc2__gcn_layer_kernel i adjM hadjM featM hfeatM wM hwM biasM hbiasM outM houtM accM haccM) K } := by
  refine ⟨?_, ?_, fun E K => ?run⟩
  case run =>
    simp only [cc2__gcn_layer_kernel_eq_skeleton]; unfold cc2__gcn_layer_kernel_skel
    unfold owns
    iintro ⟨⟨%fadj, %hfadj, Hadj⟩, ⟨%ffeat, %hffeat, Hfeat⟩, ⟨%fw, %hfw, Hw⟩, ⟨%fbias, %hfbias, Hbias⟩, ⟨%dout, %fout, -, Hout⟩, ⟨%facc, %hfacc, Hacc⟩, Hk⟩
    obtain rfl := hadjM.eq_unread hfadj; obtain rfl := hfeatM.eq_unread hffeat; obtain rfl := hwM.eq_unread hfw
    obtain rfl := hbiasM.eq_unread hfbias; obtain rfl := haccM.eq_unread hfacc
    sl_exec (disch := first | exact hfirst | exact hlast)
    sl_step
    iapply Hk
    isplitl [Hadj]
    · iexists _; isplitr; · ipureintro; exact hadjM.read_unread _
      iexact Hadj
    isplitl [Hfeat]
    · iexists _; isplitr; · ipureintro; exact hfeatM.read_unread _
      iexact Hfeat
    isplitl [Hw]
    · iexists _; isplitr; · ipureintro; exact hwM.read_unread _
      iexact Hw
    isplitl [Hbias]
    · iexists _; isplitr; · ipureintro; exact hbiasM.read_unread _
      iexact Hbias
    isplitl [Hout]; · iexists _; iexact Hout
    iexists _; iexact Hacc

end Cert.KernelIdeal.Gcn

end
-- ==== Proof.KI.L2Body.lean ====
import proofs.«114493_j18348100288854_1_alg».proof.Proof.KI.L2RunLast
import Idealize.ShloMosaic.Lib.Pipeline.Value

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem originZeroL2 : (![0, 0] : Fin 2 → Nat) = fun _ => 0 := funext fun a => by fin_cases a <;> rfl

section Point

variable (c : Dev nD) (i : grid2.Coords)
  (adjM : Memref sig .tc .vmem S1024x2048 .f32) (hadjM : adjM.IsWhole)
  (featM : Memref sig .tc .vmem S2048x32 .f32) (hfeatM : featM.IsWhole)
  (wM : Memref sig .tc .vmem S32x64 .f32) (hwM : wM.IsWhole)
  (biasM : Memref sig .tc .vmem S1x64 .f32) (hbiasM : biasM.IsWhole)
  (outM : Memref sig .tc .vmem S1024x64 .f32) (houtM : outM.IsWhole)
  (accM : Memref sig .tc .vmem S1024x64 .f32) (haccM : accM.IsWhole)
  (adj : Vec F S1024x2048 .f32) (feat : Vec F S2048x32 .f32) (wts : Vec F S32x64 .f32) (bias : Vec F S1x64 .f32)
  (acc : Vec F S1024x64 .f32)

/-- The stores of a point tile the buffer they go to, so over any contents it reads back as the last store's payload. -/
theorem readFirstL2 (hfirst : isFirstL2 i) (hlast : ¬isLastL2 i) (f) :
    accM.view.read (Elt F) (accM.view.writes (Elt F) f (runFirstL2 c i adjM hadjM featM hfeatM wM hwM biasM hbiasM outM houtM accM haccM hfirst hlast adj feat wts bias).1)
      = k2_pay2 feat wts bias adj (k2_pay1 (F := F)) := by
  refine (View.read_writes_eq_canon _ _ _ (View.cover_of_tiledL _ S1024x64.size (by sl_kernel_rfl))).trans ?_
  unfold runFirstL2
  dsimp only
  sl_unfold_words
  rw [View.canon_cons_unit_zero (S := S1024x64) originZeroL2, View.readCov_unit_zero (S := S1024x64) _ originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readMidL2 (hfirst : ¬isFirstL2 i) (hlast : ¬isLastL2 i) (f) :
    accM.view.read (Elt F) (accM.view.writes (Elt F) f (runMidL2 c i adjM hadjM featM hfeatM wM hwM biasM hbiasM outM houtM accM haccM hfirst hlast adj feat wts bias acc).1)
      = k2_pay2 feat wts bias adj acc := by
  refine (View.read_writes_eq_canon _ _ _ (View.cover_of_tiledL _ S1024x64.size (by sl_kernel_rfl))).trans ?_
  unfold runMidL2
  dsimp only
  sl_unfold_words
  rw [View.canon_unit_zero (S := S1024x64) originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readLastAccL2 (hfirst : ¬isFirstL2 i) (hlast : isLastL2 i) (f) :
    accM.view.read (Elt F) (accM.view.writes (Elt F) f (runLastL2 c i adjM hadjM featM hfeatM wM hwM biasM hbiasM outM houtM accM haccM hfirst hlast adj feat wts bias acc).2.1)
      = k2_pay2 feat wts bias adj acc := by
  refine (View.read_writes_eq_canon _ _ _ (View.cover_of_tiledL _ S1024x64.size (by sl_kernel_rfl))).trans ?_
  unfold runLastL2
  dsimp only
  sl_unfold_words
  rw [View.canon_unit_zero (S := S1024x64) originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

theorem readLastOutL2 (hfirst : ¬isFirstL2 i) (hlast : isLastL2 i) (f) :
    outM.view.read (Elt F) (outM.view.writes (Elt F) f (runLastL2 c i adjM hadjM featM hfeatM wM hwM biasM hbiasM outM houtM accM haccM hfirst hlast adj feat wts bias acc).1)
      = k2_pay3 (k2_pay2 feat wts bias adj acc) := by
  refine (View.read_writes_eq_canon _ _ _ (View.cover_of_tiledL _ S1024x64.size (by sl_kernel_rfl))).trans ?_
  unfold runLastL2
  dsimp only
  sl_unfold_words
  rw [View.canon_unit_zero (S := S1024x64) originZeroL2, View.readCov_unit_zero (S := S1024x64) _ originZeroL2]
  simp only [View.readAt_eq_ld, hadjM.read_unread, hfeatM.read_unread, hwM.read_unread, hbiasM.read_unread, haccM.read_unread,
    View.ld_unit_zero (S := S1024x2048) originZeroL2, View.ld_unit_zero (S := S2048x32) originZeroL2,
    View.ld_unit_zero (S := S32x64) originZeroL2, View.ld_unit_zero (S := S1x64) originZeroL2,
    View.ld_unit_zero (S := S1024x64) originZeroL2]

end Point

variable (V : (c : Dev nD) → (b : Ref sig .tc) → Buf (Elt F) ((c : Thread nD τ).loc b))

/-- The accumulator after point n: this point's product added to the reset value at k = 0, else to what point n - 1 left. -/
def accL2 (c : Dev nD) : (n : ℕ) → n < cfg2.N → Vec F S1024x64 .f32
  | 0, h => k2_pay2 (tileL2 V c 1 ⟨0, h⟩) (tileL2 V c 2 ⟨0, h⟩) (tileL2 V c 3 ⟨0, h⟩) (tileL2 V c 0 ⟨0, h⟩) k2_pay1
  | n + 1, h => k2_pay2 (tileL2 V c 1 ⟨n + 1, h⟩) (tileL2 V c 2 ⟨n + 1, h⟩) (tileL2 V c 3 ⟨n + 1, h⟩) (tileL2 V c 0 ⟨n + 1, h⟩)
      (if (n + 1) % 4 = 0 then k2_pay1 else accL2 c n (Nat.lt_of_succ_lt h))

/-- After point n: relu of the accumulator (what a last point stores to the output tile), and the accumulator. -/
def accAtL2 (c : Dev nD) (n : ℕ) (h : n < cfg2.N) : Vec F S1024x64 .f32 × Vec F S1024x64 .f32 :=
  (k2_pay3 (accL2 V c n h), accL2 V c n h)

theorem accAtL2_first (c : Dev nD) (t : Fin cfg2.N) (h : t.val % 4 = 0) :
    (accAtL2 V c t.val t.isLt).2 = k2_pay2 (tileL2 V c 1 t) (tileL2 V c 2 t) (tileL2 V c 3 t) (tileL2 V c 0 t) (k2_pay1 (F := F)) := by
  obtain ⟨n, hn⟩ := t
  cases n with
  | zero => rfl
  | succ n => show k2_pay2 _ _ _ _ (if (n + 1) % 4 = 0 then _ else _) = _; rw [if_pos h]

theorem accAtL2_next (c : Dev nD) (t : Fin cfg2.N) (h : ¬ t.val % 4 = 0) :
    (accAtL2 V c t.val t.isLt).2 = k2_pay2 (tileL2 V c 1 t) (tileL2 V c 2 t) (tileL2 V c 3 t) (tileL2 V c 0 t)
      (accAtL2 V c (t.val - 1) (Nat.lt_of_le_of_lt (Nat.sub_le _ _) t.isLt)).2 := by
  obtain ⟨n, hn⟩ := t
  cases n with
  | zero => exact absurd (Nat.zero_mod 4) h
  | succ n => show k2_pay2 _ _ _ _ (if (n + 1) % 4 = 0 then _ else _) = _; rw [if_neg h]; rfl

theorem accAtL2_out (c : Dev nD) (t : Fin cfg2.N) (h : t.val % 4 = 3) :
    (accAtL2 V c t.val t.isLt).1 = k2_pay3 (accAtL2 V c t.val t.isLt).2 := rfl

/-- Before position n: at n = 0 what the launch hands the layer, afterwards the accumulator at what point n - 1 left beside the rest. -/
def phiL2 (c : Dev nD) : (n : ℕ) → n ≤ cfg2.N → sProp 𝕄
  | 0, _ => Pipeline.ΦA spec2 c
  | n + 1, hn => iprop(iprop(owns (c : Thread nD τ) accRefL2 fullShare ((accAtL2 V c n hn).2) ∗ othersL2 c) ∗ (∃ r, prngReg c r))

theorem phiL2_pos (c : Dev nD) (n : ℕ) (h : n ≤ cfg2.N) (hz : n ≠ 0) :
    phiL2 V c n h = iprop(iprop(owns (c : Thread nD τ) accRefL2 fullShare ((accAtL2 V c (n - 1) (by omega)).2) ∗ othersL2 c) ∗ (∃ r, prngReg c r)) := by
  cases n with
  | zero => exact absurd rfl hz
  | succ n => rfl

/-- At every position the invariant holds the accumulator at some contents. -/
theorem phiL2_acc (c : Dev nD) (n : ℕ) (h : n ≤ cfg2.N) :
    phiL2 V c n h ⊢ iprop(iprop((∃ d, owns (c : Thread nD τ) accRefL2 fullShare d) ∗ othersL2 c) ∗ (∃ r, prngReg c r)) := by
  cases n with
  | zero =>
    show Pipeline.ΦA spec2 c ⊢ _
    rw [restL2_eq]
    try exact .rfl
  | succ n =>
    show iprop(iprop(owns (c : Thread nD τ) accRefL2 fullShare ((accAtL2 V c n h).2) ∗ othersL2 c) ∗ (∃ r, prngReg c r)) ⊢ _
    iintro ⟨⟨Hacc, Hoth⟩, Hg⟩
    isplitl [Hacc Hoth]
    · isplitl [Hacc]; · iexists _; iexact Hacc
      iexact Hoth
    iexact Hg

def datL2 (c : Dev nD) : Dat τ (Elt F) Unit ℕ (UR sig nD τ) ℕ cfg2 c where
  A w := V c (Pipeline.arrRef spec2 w)
  after w t := match w with
    | ⟨0, _⟩ => tileL2 V c 0 t
    | ⟨1, _⟩ => tileL2 V c 1 t
    | ⟨2, _⟩ => tileL2 V c 2 t
    | ⟨3, _⟩ => tileL2 V c 3 t
    | ⟨4, _⟩ => (accAtL2 V c t.val t.isLt).1
  Φ t := phiL2 V c t.val (Nat.le_of_lt_succ t.isLt)
  q _ := fullShare
  owed _ := 0

theorem datL2_A (c : Dev nD) (w : Fin cfg2.W) : (datL2 V c).A w = V c (Pipeline.arrRef spec2 w) := by dsimp only [datL2]
theorem datL2_after_4 (c : Dev nD) (t : Fin cfg2.N) : (datL2 V c).after 4 t = (accAtL2 V c t.val t.isLt).1 := by dsimp only [datL2]
theorem datL2_q (c : Dev nD) (w : Fin cfg2.W) : (datL2 V c).q w = fullShare := rfl
theorem datL2_owed (c : Dev nD) (t : Fin (cfg2.N + 1)) : (datL2 V c).owed t = 0 := rfl

theorem datL2_phi_begin (c : Dev nD) (t : Fin cfg2.N) :
    (datL2 V c).Φ t.castSucc = phiL2 V c t.val (Nat.le_of_lt t.isLt) := by
  dsimp only [datL2]; simp only [Fin.coe_castSucc]

theorem datL2_before_0 (c : Dev nD) (t : Fin cfg2.N) (d) : (datL2 V c).before 0 t d = tileL2 V c 0 t :=
  ((datL2 V c).before_in_eq_fetched 0 rfl (fun _ => rfl) (fun _ _ _ => rfl) (fun _ => rfl) t d).trans rfl
theorem datL2_before_1 (c : Dev nD) (t : Fin cfg2.N) (d) : (datL2 V c).before 1 t d = tileL2 V c 1 t :=
  ((datL2 V c).before_in_eq_fetched 1 rfl (fun _ => rfl) (fun _ _ _ => rfl) (fun _ => rfl) t d).trans rfl
theorem datL2_before_2 (c : Dev nD) (t : Fin cfg2.N) (d) : (datL2 V c).before 2 t d = tileL2 V c 2 t :=
  ((datL2 V c).before_in_eq_fetched 2 rfl (fun _ => rfl) (fun _ _ _ => rfl) (fun _ => rfl) t d).trans rfl
theorem datL2_before_3 (c : Dev nD) (t : Fin cfg2.N) (d) : (datL2 V c).before 3 t d = tileL2 V c 3 t :=
  ((datL2 V c).before_in_eq_fetched 3 rfl (fun _ => rfl) (fun _ _ _ => rfl) (fun _ => rfl) t d).trans rfl

theorem datL2_leaves_0 (c : Dev nD) (t : Fin cfg2.N) :
    (datL2 V c).leavesExact 0 t = owns (c : Thread nD τ) (stgL2_0 t) fullShare (tileL2 V c 0 t) := by
  unfold Dat.leavesExact; rw [in_liveL2 0 (by decide) _]; rfl
theorem datL2_leaves_1 (c : Dev nD) (t : Fin cfg2.N) :
    (datL2 V c).leavesExact 1 t = owns (c : Thread nD τ) (stgL2_1 t) fullShare (tileL2 V c 1 t) := by
  unfold Dat.leavesExact; rw [in_liveL2 1 (by decide) _]; rfl
theorem datL2_leaves_2 (c : Dev nD) (t : Fin cfg2.N) :
    (datL2 V c).leavesExact 2 t = owns (c : Thread nD τ) (stgL2_2 t) fullShare (tileL2 V c 2 t) := by
  unfold Dat.leavesExact; rw [in_liveL2 2 (by decide) _]; rfl
theorem datL2_leaves_3 (c : Dev nD) (t : Fin cfg2.N) :
    (datL2 V c).leavesExact 3 t = owns (c : Thread nD τ) (stgL2_3 t) fullShare (tileL2 V c 3 t) := by
  unfold Dat.leavesExact; rw [in_liveL2 3 (by decide) _]; rfl

def bodyPreL2 (c : Dev nD) (t : Fin cfg2.N) : sProp 𝕄 :=
  iprop((datL2 V c).Φ t.castSucc ∗ (datL2 V c).owesAt () t.castSucc
    ∗ (∃ d, owns (c : Thread nD τ) (stgL2_0 t) fullShare ((datL2 V c).before 0 t d))
    ∗ (∃ d, owns (c : Thread nD τ) (stgL2_1 t) fullShare ((datL2 V c).before 1 t d))
    ∗ (∃ d, owns (c : Thread nD τ) (stgL2_2 t) fullShare ((datL2 V c).before 2 t d))
    ∗ (∃ d, owns (c : Thread nD τ) (stgL2_3 t) fullShare ((datL2 V c).before 3 t d))
    ∗ (∃ d, owns (c : Thread nD τ) (stgL2_4 t) fullShare ((datL2 V c).before 4 t d)))

def bodyPostL2 (c : Dev nD) (t : Fin cfg2.N) : sProp 𝕄 :=
  iprop((datL2 V c).Φ t.succ ∗ (datL2 V c).owesAt () t.succ
    ∗ (datL2 V c).leavesExact 0 t ∗ (datL2 V c).leavesExact 1 t ∗ (datL2 V c).leavesExact 2 t
    ∗ (datL2 V c).leavesExact 3 t ∗ (datL2 V c).leavesExact 4 t)

set_option maxHeartbeats 4800000 in
/-- The body at any point: t mod 4 says which kind of point it is; the invariant hands the accumulator over and takes it
    back at this point's contents, and the output tile goes back untouched except at a last point. -/
theorem bodyL2 (c : Dev nD) (t : Fin cfg2.N) :
    bodyPreL2 V c t ⊢ wp frame (wpE (defs₀ (F := F)) Variants.none c none) Set.univ (bodyAt2 t) (fun _ => bodyPostL2 V c t) := by
  unfold bodyPreL2 bodyPostL2 bodyAt2
  simp only [datL2_before_0, datL2_before_1, datL2_before_2, datL2_before_3]
  rw [show (datL2 V c).owesAt () t.succ = (datL2 V c).owesAt () t.castSucc from rfl]
  rw [show (datL2 V c).Φ t.succ = iprop(iprop(owns (c : Thread nD τ) accRefL2 fullShare ((accAtL2 V c t.val t.isLt).2) ∗ othersL2 c) ∗ (∃ r, prngReg c r)) from rfl]
  rw [datL2_leaves_0, datL2_leaves_1, datL2_leaves_2, datL2_leaves_3, datL2_phi_begin V c t]
  have hN : t.val < 32 := lt_of_lt_of_eq t.isLt (show cfg2.N = 32 from N_2)
  by_cases h0 : t.val % 4 = 0
  · have hf : isFirstL2 (grid2.coords t) := (isFirstL2_iff t).mpr h0
    have hnl : ¬isLastL2 (grid2.coords t) := fun h => absurd ((isLastL2_iff t).mp h) (by omega)
    rw [Dat.leavesExact_idle (datL2 V c) 4 t (out_idleL2 t hnl) (out_unflushedL2 t hnl), accAtL2_first V c t h0]
    iintro ⟨Hphi, Ho, ⟨%d0, H0⟩, ⟨%d1, H1⟩, ⟨%d2, H2⟩, ⟨%d3, H3⟩, ⟨%d4, H4⟩⟩
    ihave Hparts := (phiL2_acc V c _ _) $$ Hphi
    icases Hparts with ⟨⟨Hacc, Hoth⟩, Hg⟩
    iapply ((runFirstL2 c (grid2.coords t) _ _ _ _ _ _ _ _ _ _ _ _ hf hnl (tileL2 V c 0 t) (tileL2 V c 1 t) (tileL2 V c 2 t) (tileL2 V c 3 t)).2 _ Set.univ _)
    iframe H0 H1 H2 H3 H4 Hacc
    iintro ⟨H0, H1, H2, H3, H4, ⟨%eacc, Hacc⟩⟩
    iframe Hoth Hg Ho H0 H1 H2 H3
    isplitl [Hacc]
    · unfold owns; iexists _; isplitr
      swap; · iexact Hacc
      ipureintro; exact readFirstL2 ..
    iexists _; iexact H4
  · have hnf : ¬isFirstL2 (grid2.coords t) := fun h => h0 ((isFirstL2_iff t).mp h)
    have hz : t.val ≠ 0 := fun h => h0 (by rw [h])
    rw [phiL2_pos V c _ _ hz, accAtL2_next V c t h0]
    by_cases h3 : t.val % 4 = 3
    · have hl : isLastL2 (grid2.coords t) := (isLastL2_iff t).mpr h3
      rw [show (datL2 V c).leavesExact 4 t = owns (c : Thread nD τ) (stgL2_4 t) fullShare ((datL2 V c).after 4 t) from by
        unfold Dat.leavesExact; rw [out_liveL2 t hl], datL2_after_4, accAtL2_out V c t h3, accAtL2_next V c t h0]
      iintro ⟨⟨⟨Hacc, Hoth⟩, Hg⟩, Ho, ⟨%d0, H0⟩, ⟨%d1, H1⟩, ⟨%d2, H2⟩, ⟨%d3, H3⟩, ⟨%d4, H4⟩⟩
      iapply ((runLastL2 c (grid2.coords t) _ _ _ _ _ _ _ _ _ _ _ _ hnf hl (tileL2 V c 0 t) (tileL2 V c 1 t) (tileL2 V c 2 t) (tileL2 V c 3 t) _).2.2 Set.univ _)
      iframe H0 H1 H2 H3 Hacc
      isplitl [H4]; · iexists _; iexact H4
      iintro ⟨H0, H1, H2, H3, ⟨%eout, H4⟩, ⟨%eacc, Hacc⟩⟩
      iframe Hoth Hg Ho H0 H1 H2 H3
      isplitl [Hacc]
      · unfold owns; iexists _; isplitr
        swap; · iexact Hacc
        ipureintro; exact readLastAccL2 ..
      unfold owns; iexists _; isplitr
      swap; · iexact H4
      ipureintro; exact readLastOutL2 ..
    · have hnl : ¬isLastL2 (grid2.coords t) := fun h => h3 ((isLastL2_iff t).mp h)
      rw [Dat.leavesExact_idle (datL2 V c) 4 t (out_idleL2 t hnl) (out_unflushedL2 t hnl)]
      iintro ⟨⟨⟨Hacc, Hoth⟩, Hg⟩, Ho, ⟨%d0, H0⟩, ⟨%d1, H1⟩, ⟨%d2, H2⟩, ⟨%d3, H3⟩, ⟨%d4, H4⟩⟩
      iapply ((runMidL2 c (grid2.coords t) _ _ _ _ _ _ _ _ _ _ _ _ hnf hnl (tileL2 V c 0 t) (tileL2 V c 1 t) (tileL2 V c 2 t) (tileL2 V c 3 t) _).2 _ Set.univ _)
      iframe H0 H1 H2 H3 H4 Hacc
      iintro ⟨H0, H1, H2, H3, H4, ⟨%eacc, Hacc⟩⟩
      iframe Hoth Hg Ho H0 H1 H2 H3
      isplitl [Hacc]
      · unfold owns; iexists _; isplitr
        swap; · iexact Hacc
        ipureintro; exact readMidL2 ..
      iexists _; iexact H4

theorem body_obligationL2 (c : Dev nD) : BodyObligation (datL2 (F := F) V c) (defs₀ (F := F)) Variants.none () Set.univ := fun t => by
  rw [bigSep_W2, bigSep_W2]
  exact bodyL2 V c t

theorem phiL2_in (c : Dev nD) : Pipeline.ΦA spec2 c ⊢ (datL2 V c).Φ 0 := by
  show _ ⊢ phiL2 V c 0 (Nat.zero_le _)
  exact .rfl

/-- After the last point the invariant gives back what the launch handed over, the accumulator's contents forgotten. -/
theorem phiL2_out (c : Dev nD) : (datL2 V c).Φ (Fin.last cfg2.N) ⊢ Pipeline.ΦA spec2 c := by
  rw [restL2_eq]
  exact phiL2_acc V c cfg2.N (Nat.le_refl _)

end Cert.KernelIdeal.Gcn

end
-- ==== Proof.KI.Launch.lean ====
import proofs.«114493_j18348100288854_1_alg».proof.Proof.KI.L0Body
import proofs.«114493_j18348100288854_1_alg».proof.Proof.KI.L1Body
import proofs.«114493_j18348100288854_1_alg».proof.Proof.KI.L2Body
import proofs.«114493_j18348100288854_1_alg».proof.Proof.Gen.KernelIdeal.Regions
import Idealize.ShloMosaic.Lib.Pipeline.FrameSuffix
import Idealize.ShloMosaic.Lib.Pipeline.RegionsLoop

set_option maxRecDepth 16384

noncomputable section

namespace Cert.KernelIdeal.Gcn

open Idealize.ShloMosaic Idealize.ShloMosaic.TcCoe Idealize.ShloMosaic.Tactic
open Idealize.SL Idealize.SL.RA Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

abbrev W0 (c : Dev nD) : Valuation τ sig (Elt F) := fun b => m (c, b)

abbrev W1 (c : Dev nD) : Valuation τ sig (Elt F) := StableHlo.after hostOps0 (W0 m c)

abbrev V1 : (c : Dev nD) → (b : Ref sig .tc) → Buf (Elt F) ((c : Thread nD τ).loc b) := fun c b => W1 m c (Proc.devRef .tc b)

def W2 (c : Dev nD) : Valuation τ sig (Elt F) :=
  Pipeline.withArrays spec0 c (W1 m c) fun w => (datL0 (V1 m) c).arrAt w cfg0.N

abbrev W3 (c : Dev nD) : Valuation τ sig (Elt F) := StableHlo.after hostOps1 (W2 m c)
abbrev V3 : (c : Dev nD) → (b : Ref sig .tc) → Buf (Elt F) ((c : Thread nD τ).loc b) := fun c b => W3 m c (Proc.devRef .tc b)

def W4 (c : Dev nD) : Valuation τ sig (Elt F) :=
  Pipeline.withArrays spec1 c (W3 m c) fun w => (datL1 (V3 m) c).arrAt w cfg1.N

abbrev W5 (c : Dev nD) : Valuation τ sig (Elt F) := StableHlo.after hostOps2 (W4 m c)
abbrev V5 : (c : Dev nD) → (b : Ref sig .tc) → Buf (Elt F) ((c : Thread nD τ).loc b) := fun c b => W5 m c (Proc.devRef .tc b)

def W6 (c : Dev nD) : Valuation τ sig (Elt F) :=
  Pipeline.withArrays spec2 c (W5 m c) fun w => (datL2 (V5 m) c).arrAt w cfg2.N

abbrev W7 (c : Dev nD) : Valuation τ sig (Elt F) := StableHlo.after hostOps3 (W6 m c)

abbrev W8 (c : Dev nD) : Valuation τ sig (Elt F) := StableHlo.after hostOps3_1 (W7 m c)

abbrev W9 (c : Dev nD) : Valuation τ sig (Elt F) := StableHlo.after hostOps3_2 (W8 m c)

theorem W2_arr (c : Dev nD) (w : Fin cfg0.W) :
    W2 m c (Proc.devRef .tc (Pipeline.arrRef spec0 w)) = (datL0 (V1 m) c).arrAt w cfg0.N := by
  unfold W2; exact Pipeline.withArrays_arr spec0 launch0.win.arr_inj c _ _ w

theorem W2_off (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb

theorem W2_out (c : Dev nD) : W2 m c (Proc.devRef .tc main_v1) = (datL0 (V1 m) c).arrAt 4 cfg0.N := W2_arr m c 4

theorem W2_keeps (c : Dev nD) (b : Ref sig .tc) (hb : b ≠ main_v1) : W2 m c (Proc.devRef .tc b) = W1 m c (Proc.devRef .tc b) := by
  by_cases h : ∃ w, Pipeline.arrRef spec0 w = b
  · obtain ⟨w, rfl⟩ := h
    have hin : (cfg0.win w).isOut = false := by fin_cases w <;> first | rfl | exact absurd rfl hb
    exact (W2_arr m c w).trans (((datL0 (V1 m) c).arrAt_in w hin _).trans (datL0_A (V1 m) c w))
  · exact W2_off m c b fun w e => h ⟨w, e⟩

theorem W4_arr (c : Dev nD) (w : Fin cfg1.W) :
    W4 m c (Proc.devRef .tc (Pipeline.arrRef spec1 w)) = (datL1 (V3 m) c).arrAt w cfg1.N := by
  unfold W4; exact Pipeline.withArrays_arr spec1 launch1.win.arr_inj c _ _ w
theorem W4_off (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb

theorem W4_out (c : Dev nD) : W4 m c (Proc.devRef .tc main_v3) = (datL1 (V3 m) c).arrAt 4 cfg1.N := W4_arr m c 4
theorem W4_keeps (c : Dev nD) (b : Ref sig .tc) (hb : b ≠ main_v3) : W4 m c (Proc.devRef .tc b) = W3 m c (Proc.devRef .tc b) := by
  by_cases h : ∃ w, Pipeline.arrRef spec1 w = b
  · obtain ⟨w, rfl⟩ := h
    have hin : (cfg1.win w).isOut = false := by fin_cases w <;> first | rfl | exact absurd rfl hb
    exact (W4_arr m c w).trans (((datL1 (V3 m) c).arrAt_in w hin _).trans (datL1_A (V3 m) c w))
  · exact W4_off m c b fun w e => h ⟨w, e⟩

theorem W6_arr (c : Dev nD) (w : Fin cfg2.W) :
    W6 m c (Proc.devRef .tc (Pipeline.arrRef spec2 w)) = (datL2 (V5 m) c).arrAt w cfg2.N := by
  unfold W6; exact Pipeline.withArrays_arr spec2 launch2.win.arr_inj c _ _ w
theorem W6_off (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb

theorem W6_out (c : Dev nD) : W6 m c (Proc.devRef .tc main_v5) = (datL2 (V5 m) c).arrAt 4 cfg2.N := W6_arr m c 4
theorem W6_keeps (c : Dev nD) (b : Ref sig .tc) (hb : b ≠ main_v5) : W6 m c (Proc.devRef .tc b) = W5 m c (Proc.devRef .tc b) := by
  by_cases h : ∃ w, Pipeline.arrRef spec2 w = b
  · obtain ⟨w, rfl⟩ := h
    have hin : (cfg2.win w).isOut = false := by fin_cases w <;> first | rfl | exact absurd rfl hb
    exact (W6_arr m c w).trans (((datL2 (V5 m) c).arrAt_in w hin _).trans (datL2_A (V5 m) c w))
  · exact W6_off m c b fun w e => h ⟨w, e⟩

abbrev changed : List (Ref sig .tc) :=
  hostOps0_W ++ [main_v1] ++ hostOps1_W ++ [main_v3] ++ hostOps2_W ++ [main_v5] ++ hostOps3_W ++ hostOps3_1_W ++ hostOps3_2_W

/-- No host stretch writes an argument and no layer's output array is one. -/
theorem W9_unchanged (c : Dev nD) (r : Ref sig .tc) (hr : r ∉ (changed : List (Ref sig .tc))) :
    W9 m c (Proc.devRef .tc r) = m ((c : Thread nD τ).loc r) := by
  simp only [changed, List.mem_append, not_or] at hr
  obtain ⟨⟨⟨⟨⟨⟨⟨⟨h0, hv1⟩, h1⟩, hv3⟩, h2⟩, hv5⟩, h3⟩, h31⟩, h32⟩ := hr
  calc W9 m c (Proc.devRef .tc r)
    _ = W8 m c (Proc.devRef .tc r) := StableHlo.after_of_writes_sub hostOps3_2 _ hostOps3_2_writes h32
    _ = W7 m c (Proc.devRef .tc r) := StableHlo.after_of_writes_sub hostOps3_1 _ hostOps3_1_writes h31
    _ = W6 m c (Proc.devRef .tc r) := StableHlo.after_of_writes_sub hostOps3 _ hostOps3_writes h3
    _ = W5 m c (Proc.devRef .tc r) := W6_keeps m c r (List.ne_of_not_mem_cons hv5)
    _ = W4 m c (Proc.devRef .tc r) := StableHlo.after_of_writes_sub hostOps2 _ hostOps2_writes h2
    _ = W3 m c (Proc.devRef .tc r) := W4_keeps m c r (List.ne_of_not_mem_cons hv3)
    _ = W2 m c (Proc.devRef .tc r) := StableHlo.after_of_writes_sub hostOps1 _ hostOps1_writes h1
    _ = W1 m c (Proc.devRef .tc r) := W2_keeps m c r (List.ne_of_not_mem_cons hv1)
    _ = W0 m c (Proc.devRef .tc r) := StableHlo.after_of_writes_sub hostOps0 _ hostOps0_writes h0
    _ = m ((c : Thread nD τ).loc r) := rfl

def pdats : (p : Fin 3) → (c : Dev nD) → Dat τ (Elt F) Unit ℕ (UR sig nD τ) ℕ (Pipeline.pin (pcfgs (F := F)) adm p) c
  | ⟨0, _⟩ => fun c => datL0 (V1 m) c
  | ⟨1, _⟩ => fun c => datL1 (V3 m) c
  | ⟨2, _⟩ => fun c => datL2 (V5 m) c

abbrev L : GSem nD τ sig → Finset Unit := fun _ => ∅
abbrev lv : GSem nD τ sig → Unit → ℕ := fun _ _ => 0

abbrev carried (c : Dev nD) : sProp 𝕄 :=
  iprop((∃ r, prngReg c r) ∗ ∃ W, owes (c : Thread nD τ) (0 : CellTallies nD τ sig Unit) W)

abbrev between (Wv : Dev nD → Valuation τ sig (Elt F)) (c : Dev nD) : sProp 𝕄 :=
  iprop(StableHlo.held (c : Thread nD τ) (Pipeline.ucRefs τ sig) (Wv c) ∗ carried c)

abbrev hostStretch (ops : List (HloOp τ sig (Elt F))) (hsub : ops.Forall fun op => op.bufs ⊆ StableHlo.tcRefs τ sig)
    (hfresh : ops.Forall fun op => op.fresh = ∅) (Wv : Dev nD → Valuation τ sig (Elt F)) :
    Pipeline.HostSeg (Name := ℕ) (U := UR sig nD τ) (pcfgs (F := F)) defs₀ Variants.none L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) Wv carried

section Protocol

variable (p : Fin 3) (c : Dev nD)

set_option backward.isDefEq.respectTransparency.types false in
theorem enter_layer (hw : Pipeline.WinFacts (Pipeline.pin (pcfgs (F := F)) adm p).spec)
    (harr : ∀ w, ((Pipeline.pin (pcfgs (F := F)) adm p).spec w).arr.IsWhole)
    (Wv : Valuation τ sig (Elt F))
    (hq : ∀ w, (pdats m p c).q w = fullShare)
    (hA : ∀ w, (pdats m p c).A w = Wv (Proc.devRef .tc (Pipeline.arrRef (Pipeline.pin (pcfgs (F := F)) adm p).spec w)))
    (howed : (pdats m p c).owed 0 = 0) (hrec : (pdats m p c).recorded 0 = Set.univ)
    (hK : (pcfgs (F := F) p).pre.K = 0) :
    (iprop(iprop(StableHlo.held (c : Thread nD τ) (Pipeline.ucRefs τ sig) Wv ∗ carried c)
        ∗ Pipeline.ownSems0 (fun k : PEmpty => k.elim) c ∗ levAts L lv) : sProp 𝕄)
      ⊢ |={Set.univ}=> iprop((pdats m p c).arrays ((pdats m p c).arrAt · 0)
          ∗ Pipeline.prefHeld (pcfgs (F := F) p).pre c (fun _ => fullShare) (adm p).1
          ∗ (pdats m p c).owesAt () 0 ∗ (∃ r, prngReg c r)
          ∗ Pipeline.unscopedRest (Ix := Unit) (Name := ℕ) (U := UR sig nD τ) (Lvl := ℕ) (Pipeline.pin (pcfgs (F := F)) adm p).spec c
              (fun b => Wv (Proc.devRef .tc b))) := by
  have hsplit := Pipeline.arrays_of_unscopedBufs (p := p) (pcfgs (F := F)) adm (pdats m) hw harr c
    ((pdats m p c).share_full hq) (fun b => Wv (Proc.devRef .tc b)) hA
  rw [Pipeline.unscopedBufs_held c Wv] at hsplit
  haveI : IsEmpty (Fin (pcfgs (F := F) p).pre.K) := by rw [hK]; infer_instance
  iintro ⟨⟨Hbufs, Hreg, Howes⟩, -, -⟩
  ihave Hparts := hsplit $$ Hbufs
  icases Hparts with ⟨Harrs, Hround⟩
  imodintro
  isplitl [Harrs]; · iexact Harrs
  isplitr
  · unfold Pipeline.prefHeld; rw [Finset.univ_eq_empty, BI.bigSep_empty]; iempintro
  isplitl [Howes]
  · unfold Pipeline.Dat.owesAt Pipeline.owesWithin Pipeline.Dat.bound
    rw [howed, hrec]
    icases Howes with ⟨%S, Howes⟩
    iexists S
    isplitr; · ipureintro; exact fun _ _ => Or.inl trivial
    iexact Howes
  isplitl [Hreg]; · iexact Hreg
  iexact Hround

set_option backward.isDefEq.respectTransparency.types false in
theorem leave_layer (hw : Pipeline.WinFacts (Pipeline.pin (pcfgs (F := F)) adm p).spec)
    (harr : ∀ w, ((Pipeline.pin (pcfgs (F := F)) adm p).spec w).arr.IsWhole)
    (Wv Wv' : Valuation τ sig (Elt F))
    (hq : ∀ w, (pdats m p c).q w = fullShare)
    (hF : ∀ w, (pdats m p c).arrAt w (Pipeline.pin (pcfgs (F := F)) adm p).N
      = Wv' (Proc.devRef .tc (Pipeline.arrRef (Pipeline.pin (pcfgs (F := F)) adm p).spec w)))
    (hrest : ∀ b : Ref sig .tc, b ∉ Finset.univ.image (Pipeline.arrRef (Pipeline.pin (pcfgs (F := F)) adm p).spec)
      → Wv' (Proc.devRef .tc b) = Wv (Proc.devRef .tc b))
    (howed : (pdats m p c).owed (Fin.last (Pipeline.pin (pcfgs (F := F)) adm p).N) = 0) :
    (iprop((pdats m p c).arrays ((pdats m p c).arrAt · (Pipeline.pin (pcfgs (F := F)) adm p).N)
        ∗ (pdats m p c).owesAt () (Fin.last (Pipeline.pin (pcfgs (F := F)) adm p).N) ∗ (∃ r, prngReg c r)
        ∗ Pipeline.unscopedRest (Ix := Unit) (Name := ℕ) (U := UR sig nD τ) (Lvl := ℕ) (Pipeline.pin (pcfgs (F := F)) adm p).spec c
            (fun b => Wv (Proc.devRef .tc b))) : sProp 𝕄)
      ⊢ |={Set.univ}=> iprop(StableHlo.held (c : Thread nD τ) (Pipeline.ucRefs τ sig) Wv' ∗ carried c) := by
  have hjoin := Pipeline.unscopedBufs_of_arrays (p := p) (pcfgs (F := F)) adm (Ix := Unit) (Name := ℕ) (U := UR sig nD τ) (Lvl := ℕ)
    hw harr c (pdats m) ((pdats m p c).share_full hq) (fun b => Wv (Proc.devRef .tc b)) (fun b => Wv' (Proc.devRef .tc b))
    ((pdats m p c).arrAt · (Pipeline.pin (pcfgs (F := F)) adm p).N) hF hrest
  rw [Pipeline.unscopedBufs_held c Wv'] at hjoin
  iintro ⟨Harrs, Howes, Hreg, Hround⟩
  imodintro
  isplitl [Harrs Hround]
  · iapply hjoin
    isplitl [Harrs]; · iexact Harrs
    iexact Hround
  isplitl [Hreg]; · iexact Hreg
  unfold Pipeline.Dat.owesAt Pipeline.owesWithin
  rw [howed]
  icases Howes with ⟨%S, -, Howes⟩
  iexists S
  iexact Howes

theorem into_invariant (hphi : (Pipeline.ΦA (Pipeline.pin (pcfgs (F := F)) adm p).spec c : sProp 𝕄) ⊢ (pdats m p c).Φ 0) :
    (iprop((∃ r, prngReg c r) ∗ Pipeline.prefHeld (pcfgs (F := F) p).pre c (fun _ => fullShare) (adm p).1
        ∗ Pipeline.scopedRest (Pipeline.pin (pcfgs (F := F)) adm p).spec c) : sProp 𝕄) ⊢ (pdats m p c).Φ 0 := by
  have hclass : (iprop((∃ r, prngReg c r) ∗ Pipeline.prefHeld (pcfgs (F := F) p).pre c (fun _ => fullShare) (adm p).1
      ∗ Pipeline.scopedRest (Pipeline.pin (pcfgs (F := F)) adm p).spec c) : sProp 𝕄)
      ⊢ Pipeline.ΦA (Pipeline.pin (pcfgs (F := F)) adm p).spec c := by
    unfold Pipeline.ΦA
    iintro ⟨Hreg, -, Hscoped⟩
    isplitl [Hscoped]; · iexact Hscoped
    iexact Hreg
  exact hclass.trans hphi

theorem out_of_invariant
    (hphi : (pdats m p c).Φ (Fin.last (Pipeline.pin (pcfgs (F := F)) adm p).N) ⊢ (Pipeline.ΦA (Pipeline.pin (pcfgs (F := F)) adm p).spec c : sProp 𝕄)) :
    (pdats m p c).Φ (Fin.last (Pipeline.pin (pcfgs (F := F)) adm p).N)
      ⊢ (iprop((∃ r, prngReg c r) ∗ Pipeline.ownSems0 (fun k : PEmpty => k.elim) c
          ∗ Pipeline.scopedRest (Pipeline.pin (pcfgs (F := F)) adm p).spec c) : sProp 𝕄) := by
  have hclass : (Pipeline.ΦA (Pipeline.pin (pcfgs (F := F)) adm p).spec c : sProp 𝕄)
      ⊢ iprop((∃ r, prngReg c r) ∗ Pipeline.ownSems0 (fun k : PEmpty => k.elim) c
          ∗ Pipeline.scopedRest (Pipeline.pin (pcfgs (F := F)) adm p).spec c) := by
    unfold Pipeline.ΦA
    rw [Pipeline.ownSems0_none]
    iintro ⟨Hscoped, Hreg⟩
    isplitl [Hreg]; · iexact Hreg
    isplitr; · iempintro
    iexact Hscoped
  exact hphi.trans hclass

end Protocol

set_option backward.isDefEq.respectTransparency.types false in
def reg0 : Pipeline.RegionSeg (pcfgs (F := F)) adm (pdats m) () defs₀ Variants.none L lv 0 where
  win := launch0.win.to₀
  block_pos := launch0.block_pos
  stage_whole := launch0.stage_whole
  K := PEmpty
  osem k := k.elim
  ho := Pipeline.OwnSemFacts.none _
  hbody c := (body_obligationL0 (V1 m) c).loose
  hwaits := Pipeline.hwaits_of_owed_zero _ _ _ _ L lv 0 fun c t => datL0_owed (V1 m) c t
  pre := between (W1 m)
  post := between (W2 m)
  X c := iprop(∃ r, prngReg c r)
  Y c := iprop(∃ r, prngReg c r)
  Z c := Pipeline.unscopedRest (Ix := Unit) (Name := ℕ) (U := UR sig nD τ) (Lvl := ℕ) spec0 c (V1 m c)
  hentry c := enter_layer m 0 c launch0.win launch0.arr_whole (W1 m c) (datL0_q (V1 m) c) (datL0_A (V1 m) c)
    (datL0_owed (V1 m) c 0) rfl rfl
  hin c := into_invariant m 0 c (phiL0_in (V1 m) c)
  hout c := out_of_invariant m 0 c (phiL0_out (V1 m) c)
  hexit c := leave_layer m 0 c launch0.win launch0.arr_whole (W1 m c) (W2 m c) (datL0_q (V1 m) c)
    (fun w => (W2_arr m c w).symm)
    (fun b hb => W2_off m c b fun w e => hb (Finset.mem_image.mpr ⟨w, Finset.mem_univ _, e⟩))
    (datL0_owed (V1 m) c _)

set_option backward.isDefEq.respectTransparency.types false in
def reg1 : Pipeline.RegionSeg (pcfgs (F := F)) adm (pdats m) () defs₀ Variants.none L lv 1 where
  win := launch1.win.to₀
  block_pos := launch1.block_pos
  stage_whole := launch1.stage_whole
  K := PEmpty
  osem k := k.elim
  ho := Pipeline.OwnSemFacts.none _
  hbody c := (body_obligationL1 (V3 m) c).loose
  hwaits := Pipeline.hwaits_of_owed_zero _ _ _ _ L lv 1 fun c t => datL1_owed (V3 m) c t
  pre := between (W3 m)
  post := between (W4 m)
  X c := iprop(∃ r, prngReg c r)
  Y c := iprop(∃ r, prngReg c r)
  Z c := Pipeline.unscopedRest (Ix := Unit) (Name := ℕ) (U := UR sig nD τ) (Lvl := ℕ) spec1 c (V3 m c)
  hentry c := enter_layer m 1 c launch1.win launch1.arr_whole (W3 m c) (datL1_q (V3 m) c) (datL1_A (V3 m) c)
    (datL1_owed (V3 m) c 0) rfl rfl
  hin c := into_invariant m 1 c (phiL1_in (V3 m) c)
  hout c := out_of_invariant m 1 c (phiL1_out (V3 m) c)
  hexit c := leave_layer m 1 c launch1.win launch1.arr_whole (W3 m c) (W4 m c) (datL1_q (V3 m) c)
    (fun w => (W4_arr m c w).symm)
    (fun b hb => W4_off m c b fun w e => hb (Finset.mem_image.mpr ⟨w, Finset.mem_univ _, e⟩))
    (datL1_owed (V3 m) c _)

set_option backward.isDefEq.respectTransparency.types false in
def reg2 : Pipeline.RegionSeg (pcfgs (F := F)) adm (pdats m) () defs₀ Variants.none L lv 2 where
  win := launch2.win.to₀
  block_pos := launch2.block_pos
  stage_whole := launch2.stage_whole
  K := PEmpty
  osem k := k.elim
  ho := Pipeline.OwnSemFacts.none _
  hbody c := (body_obligationL2 (V5 m) c).loose
  hwaits := Pipeline.hwaits_of_owed_zero _ _ _ _ L lv 2 fun c t => datL2_owed (V5 m) c t
  pre := between (W5 m)
  post := between (W6 m)
  X c := iprop(∃ r, prngReg c r)
  Y c := iprop(∃ r, prngReg c r)
  Z c := Pipeline.unscopedRest (Ix := Unit) (Name := ℕ) (U := UR sig nD τ) (Lvl := ℕ) spec2 c (V5 m c)
  hentry c := enter_layer m 2 c launch2.win launch2.arr_whole (W5 m c) (datL2_q (V5 m) c) (datL2_A (V5 m) c)
    (datL2_owed (V5 m) c 0) rfl rfl
  hin c := into_invariant m 2 c (phiL2_in (V5 m) c)
  hout c := out_of_invariant m 2 c (phiL2_out (V5 m) c)
  hexit c := leave_layer m 2 c launch2.win launch2.arr_whole (W5 m c) (W6 m c) (datL2_q (V5 m) c)
    (fun w => (W6_arr m c w).symm)
    (fun b hb => W6_off m c b fun w e => hb (Finset.mem_image.mpr ⟨w, Finset.mem_univ _, e⟩))
    (datL2_owed (V5 m) c _)

abbrev segs : List (Pipeline.Seg (pcfgs (F := F)) adm (pdats m) () defs₀ Variants.none L lv) :=
  [ .host (hostStretch hostOps0 hostOps0_sub hostOps0_fresh (W0 m)),
    .region (reg0 m),
    .host (hostStretch hostOps1 hostOps1_sub hostOps1_fresh (W2 m)),
    .region (reg1 m),
    .host (hostStretch hostOps2 hostOps2_sub hostOps2_fresh (W4 m)),
    .region (reg2 m),
    .host (hostStretch hostOps3 hostOps3_sub hostOps3_fresh (W6 m)),
    .host (hostStretch hostOps3_1 hostOps3_1_sub hostOps3_1_fresh (W7 m)),
    .host (hostStretch hostOps3_2 hostOps3_2_sub hostOps3_2_fresh (W8 m)) ]

theorem main_run (c : Dev nD) : main (F := F) c = Pipeline.Seg.run (segs m) := (main_chain c).trans (by chain_rfl)

theorem unscoped_mem (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- No stretch writes an argument: where memory agrees with the last boundary's contents it holds the launch contents. -/
theorem arg_kept (c : Dev nD) (r : Ref sig .tc) (hu : ¬ (Proc.devRef .tc r : DevRef τ sig).isScoped) (hr : r ∉ (changed : List (Ref sig .tc)))
    (mem : (ℓ : Loc nD τ sig) → Buf (Elt F) ℓ) (h : ∀ b ∈ Pipeline.ucRefs τ sig, mem ((c : Thread nD τ).1, b) = W9 m c b) :
    mem ((c : Thread nD τ).loc r) = m ((c : Thread nD τ).loc r) :=
  (h _ (unscoped_mem r hu)).trans (W9_unchanged m c r hr)

abbrev atReturn (c : Dev nD) : sProp 𝕄 :=
  iprop(StableHlo.held (c : Thread nD τ) (Pipeline.ucRefs τ sig) (W9 m c) ∗ ∃ r, prngReg c r)
theorem between_last (c : Dev nD) :
    between (W9 m) c ⊢ iprop(atReturn m c ∗ ∃ W, owes (c : Thread nD τ) (0 : CellTallies nD τ sig Unit) W) := by
  iintro ⟨Hbufs, Hreg, Howes⟩
  isplitl [Hbufs Hreg]
  · isplitl [Hbufs]; · iexact Hbufs
    iexact Hreg
  iexact Howes

set_option backward.isDefEq.respectTransparency.types false in
/-- Every weakly fair execution of @main terminates with every buffer it holds between stretches at the last boundary's contents. -/
theorem run_all : θ_run defs (onTc (τ := τ) (main (F := F))) ⟨m, fun _ => 0, ρ⟩
    (fun r => ∀ c : Dev nD, ∀ b ∈ Pipeline.ucRefs τ sig, r.2.mem ((c : Thread nD τ).1, b) = W9 m c b) :=
  Pipeline.θ_run_regions_kit (pcfgs (F := F)) adm (pdats m) () cellOf_inj emb₁ defs₀ Variants.none L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hlib
      imodintro
      isplitl [Hlib]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hlib
      iapply (show (BI.emp : sProp 𝕄) ⊢ bigSep Finset.univ (fun _ : Dev nD => (BI.emp : sProp 𝕄)) from by rw [BI.bigSep_emp_const])
      iempintro)
    (T₀ := between (W0 m)) (Tₙ := atReturn m)
    (hch := ⟨fun _ => .rfl, fun _ => .rfl, fun _ => .rfl, fun _ => .rfl, fun _ => .rfl, fun _ => .rfl, fun _ => .rfl,
      fun _ => .rfl, fun _ => .rfl, fun c => between_last m c⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hbufs, -, Howes, -, Hreg, -⟩, -⟩
      imodintro
      isplitl [Hbufs]; · iexact Hbufs
      isplitl [Hreg]; · iexists _; iexact Hreg
      iexists ∅; iexact Howes)
    (QY := fun c s => ∀ b ∈ Pipeline.ucRefs τ sig, s.mem ((c : Thread nD τ).1, b) = W9 m c b)
    (hfin := fun c s' => by
      iintro ⟨⟨Hbufs, -⟩, Hstate⟩
      unfold StableHlo.held
      imodintro
      iapply (pointsTo_read_all (Pipeline.ucRefs τ sig) (fun b => ((c : Thread nD τ).1, b)) (W9 m c) s')
      isplitl [Hbufs]; · iexact Hbufs
      iexact Hstate)
    (hQ := fun s h => h)

end Cert.KernelIdeal.Gcn

end
-- ==== Proof.MatMul.lean ====
import Idealize.ShloMosaic.Lib.ValueIdx
import Idealize.ShloMosaic.PureOps.Ideal.Laws

noncomputable section

namespace Gcn

open Idealize.ShloMosaic
open scoped BigOperators

section
variable {M K N : ℕ} (D : DotDims ⟨2, ![M, K]⟩ ⟨2, ![K, N]⟩ ⟨2, ![M, N]⟩)
  (hr : D.contr.rank = 1) (hs : D.contr.size ⟨0, by omega⟩ = K)
  (hl0 : ∀ i q, (D.lhsIdx i q 0).val = (i 0).val) (hl1 : ∀ i q, (D.lhsIdx i q 1).val = (q ⟨0, by omega⟩).val)
  (hr0 : ∀ i q, (D.rhsIdx i q 0).val = (q ⟨0, by omega⟩).val) (hr1 : ∀ i q, (D.rhsIdx i q 1).val = (i 1).val)
  {φ₁ φ₂ : FTy} (x : FVec Ideal ⟨2, ![M, K]⟩ φ₁) (w : FVec Ideal ⟨2, ![K, N]⟩ φ₂) (j : Fin M) (q : Fin N)

include hs hl0 hl1 hr0 hr1 in
/-- A product [M, K] x [K, N] contracts one axis: at (j, q) its sum over the contraction index is the sum over the one
    coordinate d of x (j, d) * w (d, q), given where the dimension numbers send an output and a contraction index. -/
theorem contr_sum_ix2 :
    ∑ k : D.contr.Idx, x (D.lhsIdx (ValueIdx.ix2 j q) k) * w (D.rhsIdx (ValueIdx.ix2 j q) k)
      = ∑ d : Fin K, x (ValueIdx.ix2 j d) * w (ValueIdx.ix2 d q) := by
  rw [← Equiv.sum_comp (ValueIdx.contrEquiv1 D K hr hs).symm]
  refine Finset.sum_congr rfl fun d _ => ?_
  have hd := ValueIdx.contrEquiv1_symm_val D K hr hs d
  have el : D.lhsIdx (ValueIdx.ix2 j q) ((ValueIdx.contrEquiv1 D K hr hs).symm d) = ValueIdx.ix2 j d :=
    funext fun a => Fin.ext (by
      match a with
      | ⟨0, _⟩ => exact hl0 _ _
      | ⟨1, _⟩ => exact (hl1 _ _).trans hd)
  have er : D.rhsIdx (ValueIdx.ix2 j q) ((ValueIdx.contrEquiv1 D K hr hs).symm d) = ValueIdx.ix2 d q :=
    funext fun a => Fin.ext (by
      match a with
      | ⟨0, _⟩ => exact (hr0 _ _).trans hd
      | ⟨1, _⟩ => exact hr1 _ _)
  rw [el, er]

include hs hl0 hl1 hr0 hr1 in
/-- A kernel's block product into a zero accumulator, at (j, q). -/
theorem matmul_zero_ix2 :
    matmul D none x w (constant (F := Ideal) ⟨2, ![M, N]⟩ .f32 0x00000000#32) (ValueIdx.ix2 j q)
      = ∑ d : Fin K, x (ValueIdx.ix2 j d) * w (ValueIdx.ix2 d q) := by
  simp only [matmul]
  rw [Ideal.matmul_constant_zero_apply]
  exact contr_sum_ix2 D hr hs hl0 hl1 hr0 hr1 x w j q

include hs hl0 hl1 hr0 hr1 in
/-- The host's product, at (j, q). -/
theorem dotGeneral_ix2 :
    Host.dotGeneral (F := Ideal) D none x w (ValueIdx.ix2 j q) = ∑ d : Fin K, x (ValueIdx.ix2 j d) * w (ValueIdx.ix2 d q) := by
  simp only [Host.dotGeneral]
  rw [Ideal.dotGeneral_apply]
  exact contr_sum_ix2 D hr hs hl0 hl1 hr0 hr1 x w j q

end

end Gcn

end
-- ==== Proof.KI.L0ValuePay.lean ====
import proofs.«114493_j18348100288854_1_alg».proof.Proof.KI.L0Setup
import proofs.«114493_j18348100288854_1_alg».proof.Proof.MatMul
import Idealize.ShloMosaic.Lib.Pipeline.Value
import Idealize.ShloMosaic.Lib.ValueLayout

set_option maxRecDepth 16384

noncomputable section

namespace Cert.KernelIdeal.Gcn

open Idealize.ShloMosaic Idealize.ShloMosaic.TcCoe
open Cert.KernelIdeal Cert.KernelIdeal.Gen

theorem biasL0_apply {α : Type} (b : S1x16.Idx → α) (j : Fin 2048) (q : Fin 16) :
    broadcastTo S2048x16 b broadcasts_S1x16_S2048x16 (ValueIdx.ix2 j q) = b (ValueIdx.ix2 (0 : Fin 1) q) :=
  broadcastTo_apply b broadcasts_S1x16_S2048x16 (ValueIdx.ix2 j q) (ValueIdx.ix2 (0 : Fin 1) q) (fun a => by
    match a with
    | ⟨0, _⟩ => rfl
    | ⟨1, _⟩ => rfl)

theorem payL0_reset (p : Fin 1024) (q : Fin 16) : k0_pay1 (F := Ideal) (ValueIdx.ix2 p q) = 0 := by
  unfold k0_pay1
  simp only [shapeCast_self]
  exact Ideal.ofBits_zero_f32

/-- One accumulation step adds a · (x · W + b) to the accumulator; the changes of float format in between are the identity. -/
theorem payL0_step (xt : Vec Ideal S2048x128 .f32) (wt : Vec Ideal S128x16 .f32) (bt : Vec Ideal S1x16 .f32)
    (at' : Vec Ideal S1024x2048 .f32) (acc : Vec Ideal S1024x16 .f32) (p : Fin 1024) (q : Fin 16) :
    k0_pay2 xt wt bt at' acc (ValueIdx.ix2 p q)
      = acc (ValueIdx.ix2 p q) + ∑ j : Fin 2048, at' (ValueIdx.ix2 p j)
          * ((∑ d : Fin 128, xt (ValueIdx.ix2 j d) * wt (ValueIdx.ix2 d q)) + bt (ValueIdx.ix2 (0 : Fin 1) q)) := by
  unfold k0_pay2
  simp only [shapeCast_self]
  refine congrArg (acc (ValueIdx.ix2 p q) + ·) ?_
  refine (Gcn.matmul_zero_ix2 dot_S1024x2048_S2048x16_S1024x16_1_0_0_1_n_n rfl rfl (fun _ _ => rfl) (fun _ _ => rfl)
    (fun _ _ => rfl) (fun _ _ => rfl) _ _ p q).trans ?_
  refine Finset.sum_congr rfl fun j _ => ?_
  refine congrArg (at' (ValueIdx.ix2 p j) * ·) ?_
  exact congrArg₂ (· + ·) (Gcn.matmul_zero_ix2 dot_S2048x128_S128x16_S2048x16_1_0_0_1_n_n rfl rfl (fun _ _ => rfl)
    (fun _ _ => rfl) (fun _ _ => rfl) (fun _ _ => rfl) _ _ j q) (biasL0_apply bt j q)

theorem payL0_out (acc : Vec Ideal S1024x16 .f32) (p : Fin 1024) (q : Fin 16) :
    k0_pay3 acc (ValueIdx.ix2 p q) = max (acc (ValueIdx.ix2 p q)) 0 := by
  unfold k0_pay3
  exact congrArg (max (acc (ValueIdx.ix2 p q)) ·) Ideal.ofBits_zero_f32

end Cert.KernelIdeal.Gcn
end
-- ==== Proof.Spec.lean ====
import Mathlib.Data.EReal.Basic
import Mathlib.Algebra.BigOperators.Fin
import Mathlib.Algebra.BigOperators.Group.Finset.Basic

noncomputable section

namespace Gcn

open scoped BigOperators

/-- One row of x · W + b. -/
def affine {n din dout : ℕ} (x : Fin n → Fin din → EReal) (W : Fin din → Fin dout → EReal) (b : Fin dout → EReal) :
    Fin n → Fin dout → EReal :=
  fun j col => (∑ d, x j d * W d col) + b col

/-- A graph-convolution layer: relu (adj · (x · W + b)). -/
def layer {n din dout : ℕ} (adj : Fin n → Fin n → EReal) (x : Fin n → Fin din → EReal) (W : Fin din → Fin dout → EReal)
    (b : Fin dout → EReal) : Fin n → Fin dout → EReal :=
  fun r col => max (∑ j, adj r j * affine x W b j col) 0

/-- The head: relu (h · Wo0 + bo0) · Wo1 + bo1. -/
def head {n d0 d1 d2 : ℕ} (h : Fin n → Fin d0 → EReal) (Wo0 : Fin d0 → Fin d1 → EReal) (bo0 : Fin d1 → EReal)
    (Wo1 : Fin d1 → Fin d2 → EReal) (bo1 : Fin d2 → EReal) : Fin n → Fin d2 → EReal :=
  fun r col => (∑ e, max (affine h Wo0 bo0 r e) 0 * Wo1 e col) + bo1 col

/-- The network: three layers, then the head. -/
def net (x : Fin 8192 → Fin 128 → EReal) (adj : Fin 8192 → Fin 8192 → EReal)
    (W0 : Fin 128 → Fin 16 → EReal) (b0 : Fin 16 → EReal) (W1 : Fin 16 → Fin 32 → EReal) (b1 : Fin 32 → EReal)
    (W2 : Fin 32 → Fin 64 → EReal) (b2 : Fin 64 → EReal) (Wo0 : Fin 64 → Fin 32 → EReal) (bo0 : Fin 32 → EReal)
    (Wo1 : Fin 32 → Fin 10 → EReal) (bo1 : Fin 10 → EReal) : Fin 8192 → Fin 10 → EReal :=
  head (layer adj (layer adj (layer adj x W0 b0) W1 b1) W2 b2) Wo0 bo0 Wo1 bo1

/-- A sum over 8192 terms is zero plus its four consecutive blocks of 2048 added in order: addition of extended reals is
    associative everywhere, so the last block is peeled off three times. -/
theorem sum_four_blocks (f : Fin 8192 → EReal) :
    ∑ J, f J =
      (((0 + ∑ j : Fin 2048, f ⟨j.val, by omega⟩) + ∑ j : Fin 2048, f ⟨2048 + j.val, by omega⟩)
        + ∑ j : Fin 2048, f ⟨4096 + j.val, by omega⟩) + ∑ j : Fin 2048, f ⟨6144 + j.val, by omega⟩ := by
  have last : ∑ J, f J
      = (∑ i : Fin 6144, f ⟨i.val, by omega⟩) + ∑ j : Fin 2048, f ⟨6144 + j.val, by omega⟩ :=
    Fin.sum_univ_add (M := EReal) (a := 6144) (b := 2048) f
  have third : (∑ i : Fin 6144, f ⟨i.val, by omega⟩)
      = (∑ i : Fin 4096, f ⟨i.val, by omega⟩) + ∑ j : Fin 2048, f ⟨4096 + j.val, by omega⟩ :=
    Fin.sum_univ_add (M := EReal) (a := 4096) (b := 2048) (fun i : Fin (4096 + 2048) => f ⟨i.val, by omega⟩)
  have second : (∑ i : Fin 4096, f ⟨i.val, by omega⟩)
      = (∑ i : Fin 2048, f ⟨i.val, by omega⟩) + ∑ j : Fin 2048, f ⟨2048 + j.val, by omega⟩ :=
    Fin.sum_univ_add (M := EReal) (a := 2048) (b := 2048) (fun i : Fin (2048 + 2048) => f ⟨i.val, by omega⟩)
  rw [zero_add, last, third, second]

end Gcn

end
-- ==== Proof.KI.L0Value.lean ====
import proofs.«114493_j18348100288854_1_alg».proof.Proof.KI.L0Body
import proofs.«114493_j18348100288854_1_alg».proof.Proof.KI.L0ValuePay
import proofs.«114493_j18348100288854_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Idealize.ShloMosaic Idealize.ShloMosaic.TcCoe
open Cert.KernelIdeal Cert.KernelIdeal.Gen

variable (V : (c : Dev nD) → (b : Ref sig .tc) → Buf (Elt Ideal) ((c : Thread nD τ).loc b))

abbrev adjL0 (c : Dev nD) : Fin 8192 → Fin 8192 → EReal := fun a b => V c (Pipeline.arrRef spec0 0) (ValueIdx.ix2 a b)
abbrev nodesL0 (c : Dev nD) : Fin 8192 → Fin 128 → EReal := fun a b => V c (Pipeline.arrRef spec0 1) (ValueIdx.ix2 a b)
abbrev weightsL0 (c : Dev nD) : Fin 128 → Fin 16 → EReal := fun a b => V c (Pipeline.arrRef spec0 2) (ValueIdx.ix2 a b)
abbrev biasRowL0 (c : Dev nD) : Fin 16 → EReal := fun b => V c (Pipeline.arrRef spec0 3) (ValueIdx.ix2 (0 : Fin 1) b)

abbrev termL0 (c : Dev nD) (R : Fin 8192) (q : Fin 16) (J : Fin 8192) : EReal :=
  adjL0 V c R J * Gcn.affine (nodesL0 V c) (weightsL0 V c) (biasRowL0 V c) J q

theorem idxL0 : ∀ t : Fin cfg0.N,
    win0_0.index t (0 : Fin 2) = t.val / 4 ∧ win0_0.index t (1 : Fin 2) = t.val % 4
    ∧ win0_1.index t (0 : Fin 2) = t.val % 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val / 4 ∧ win0_4.index t (1 : Fin 2) = 0 :=
  (by decide +kernel : ∀ t : Fin grid0.N, _)

theorem tileL0_adj (c : Dev nD) (t : Fin cfg0.N) (p : Fin 1024) (j : Fin 2048) (R J : Fin 8192)
    (hR : R.val = 1024 * (t.val / 4) + p.val) (hJ : J.val = 2048 * (t.val % 4) + j.val) :
    (tileL0 V c 0 t : Vec Ideal S1024x2048 .f32) (ValueIdx.ix2 p j) = adjL0 V c R J := by
  obtain ⟨e0, e1, -⟩ := idxL0 t
  unfold tileL0
  rw [View.read_apply]
  show V c (Pipeline.arrRef spec0 0) (((cfg0.win 0).blk t).view.emb (ValueIdx.ix2 p j)) = V c (Pipeline.arrRef spec0 0) (ValueIdx.ix2 R J)
  refine congrArg (V c (Pipeline.arrRef spec0 0)) (funext fun a => Fin.ext ?_)
  match a with
  | ⟨0, _⟩ => show win0_0.index t (0 : Fin 2) * 1024 + 1 * p.val = R.val; rw [e0, hR]; omega
  | ⟨1, _⟩ => show win0_0.index t (1 : Fin 2) * 2048 + 1 * j.val = J.val; rw [e1, hJ]; omega

theorem tileL0_nodes (c : Dev nD) (t : Fin cfg0.N) (j : Fin 2048) (d : Fin 128) (J : Fin 8192)
    (hJ : J.val = 2048 * (t.val % 4) + j.val) :
    (tileL0 V c 1 t : Vec Ideal S2048x128 .f32) (ValueIdx.ix2 j d) = nodesL0 V c J d := by
  obtain ⟨-, -, e2, e3, -⟩ := idxL0 t
  unfold tileL0
  rw [View.read_apply]
  show V c (Pipeline.arrRef spec0 1) (((cfg0.win 1).blk t).view.emb (ValueIdx.ix2 j d)) = V c (Pipeline.arrRef spec0 1) (ValueIdx.ix2 J d)
  refine congrArg (V c (Pipeline.arrRef spec0 1)) (funext fun a => Fin.ext ?_)
  match a with
  | ⟨0, _⟩ => show win0_1.index t (0 : Fin 2) * 2048 + 1 * j.val = J.val; rw [e2, hJ]; omega
  | ⟨1, _⟩ => show win0_1.index t (1 : Fin 2) * S2048x128.size 1 + 1 * d.val = d.val; rw [e3, Nat.zero_mul, Nat.zero_add, Nat.one_mul]

theorem tileL0_weights (c : Dev nD) (t : Fin cfg0.N) (d : Fin 128) (q : Fin 16) :
    (tileL0 V c 2 t : Vec Ideal S128x16 .f32) (ValueIdx.ix2 d q) = weightsL0 V c d q := by
  obtain ⟨-, -, -, -, e4, e5, -⟩ := idxL0 t
  unfold tileL0
  rw [View.read_apply]
  show V c (Pipeline.arrRef spec0 2) (((cfg0.win 2).blk t).view.emb (ValueIdx.ix2 d q)) = V c (Pipeline.arrRef spec0 2) (ValueIdx.ix2 d q)
  refine congrArg (V c (Pipeline.arrRef spec0 2)) (funext fun a => Fin.ext ?_)
  match a with
  | ⟨0, _⟩ => show win0_2.index t (0 : Fin 2) * S128x16.size 0 + 1 * d.val = d.val; rw [e4, Nat.zero_mul, Nat.zero_add, Nat.one_mul]
  | ⟨1, _⟩ => show win0_2.index t (1 : Fin 2) * S128x16.size 1 + 1 * q.val = q.val; rw [e5, Nat.zero_mul, Nat.zero_add, Nat.one_mul]

theorem tileL0_bias (c : Dev nD) (t : Fin cfg0.N) (q : Fin 16) :
    (tileL0 V c 3 t : Vec Ideal S1x16 .f32) (ValueIdx.ix2 (0 : Fin 1) q) = biasRowL0 V c q := by
  obtain ⟨-, -, -, -, -, -, e6, e7, -⟩ := idxL0 t
  unfold tileL0
  rw [View.read_apply]
  show V c (Pipeline.arrRef spec0 3) (((cfg0.win 3).blk t).view.emb (ValueIdx.ix2 (0 : Fin 1) q)) = V c (Pipeline.arrRef spec0 3) (ValueIdx.ix2 (0 : Fin 1) q)
  refine congrArg (V c (Pipeline.arrRef spec0 3)) (funext fun a => Fin.ext ?_)
  match a with
  | ⟨0, _⟩ => show win0_3.index t (0 : Fin 2) * S1x16.size 0 + 1 * (0 : Fin 1).val = (0 : Fin 1).val; rw [e6, Nat.zero_mul, Nat.zero_add, Nat.one_mul]
  | ⟨1, _⟩ => show win0_3.index t (1 : Fin 2) * S1x16.size 1 + 1 * q.val = q.val; rw [e7, Nat.zero_mul, Nat.zero_add, Nat.one_mul]

/-- Point t = 4 i + k adds, at (p, q), the part of row 1024 i + p of the layer's sum that runs over the nodes of column block k. -/
theorem stepL0 (c : Dev nD) (t : Fin cfg0.N) (acc : Vec Ideal S1024x16 .f32) (p : Fin 1024) (q : Fin 16) (R : Fin 8192)
    (hR : R.val = 1024 * (t.val / 4) + p.val) (Jf : Fin 2048 → Fin 8192) (hJ : ∀ j, (Jf j).val = 2048 * (t.val % 4) + j.val) :
    k0_pay2 (tileL0 V c 1 t) (tileL0 V c 2 t) (tileL0 V c 3 t) (tileL0 V c 0 t) acc (ValueIdx.ix2 p q)
      = acc (ValueIdx.ix2 p q) + ∑ j : Fin 2048, termL0 V c R q (Jf j) := by
  refine (payL0_step (tileL0 V c 1 t) (tileL0 V c 2 t) (tileL0 V c 3 t) (tileL0 V c 0 t) acc p q).trans ?_
  refine congrArg (acc (ValueIdx.ix2 p q) + ·) (Finset.sum_congr rfl fun j _ => ?_)
  refine congrArg₂ (· * ·) (tileL0_adj V c t p j R (Jf j) hR (hJ j)) ?_
  refine congrArg₂ (· + ·) (Finset.sum_congr rfl fun d _ => ?_) (tileL0_bias V c t q)
  exact congrArg₂ (· * ·) (tileL0_nodes V c t j d (Jf j) (hJ j)) (tileL0_weights V c t d q)

/-- After the last point of a row block the accumulator holds the whole row sums: zero plus the four blocks' partial sums in order. -/
theorem accL0_last (c : Dev nD) (t : Fin cfg0.N) (h3 : t.val % 4 = 3) (p : Fin 1024) (q : Fin 16) (R : Fin 8192)
    (hR : R.val = 1024 * (t.val / 4) + p.val) :
    (accAtL0 V c t.val t.isLt).2 (ValueIdx.ix2 p q) = ∑ J : Fin 8192, termL0 V c R q J := by
  have hN : cfg0.N = 32 := N_0
  have ht := t.isLt
  have l1 : t.val - 1 < cfg0.N := by omega
  have l2 : t.val - 1 - 1 < cfg0.N := by omega
  have l3 : t.val - 1 - 1 - 1 < cfg0.N := by omega
  have e3 := (congrFun (accAtL0_next V c t (by omega)) (ValueIdx.ix2 p q)).trans
    (stepL0 V c t _ p q R hR (fun j => ⟨6144 + j.val, by omega⟩) (fun j => by show 6144 + j.val = _; omega))
  have e2 := (congrFun (accAtL0_next V c ⟨t.val - 1, l1⟩ (by show ¬(t.val - 1) % 4 = 0; omega)) (ValueIdx.ix2 p q)).trans
    (stepL0 V c ⟨t.val - 1, l1⟩ _ p q R (by show R.val = 1024 * ((t.val - 1) / 4) + p.val; omega)
      (fun j => ⟨4096 + j.val, by omega⟩) (fun j => by show 4096 + j.val = 2048 * ((t.val - 1) % 4) + j.val; omega))
  have e1 := (congrFun (accAtL0_next V c ⟨t.val - 1 - 1, l2⟩ (by show ¬(t.val - 1 - 1) % 4 = 0; omega)) (ValueIdx.ix2 p q)).trans
    (stepL0 V c ⟨t.val - 1 - 1, l2⟩ _ p q R (by show R.val = 1024 * ((t.val - 1 - 1) / 4) + p.val; omega)
      (fun j => ⟨2048 + j.val, by omega⟩) (fun j => by show 2048 + j.val = 2048 * ((t.val - 1 - 1) % 4) + j.val; omega))
  have e0 := (congrFun (accAtL0_first V c ⟨t.val - 1 - 1 - 1, l3⟩ (by show (t.val - 1 - 1 - 1) % 4 = 0; omega)) (ValueIdx.ix2 p q)).trans
    ((stepL0 V c ⟨t.val - 1 - 1 - 1, l3⟩ (k0_pay1 (F := Ideal)) p q R (by show R.val = 1024 * ((t.val - 1 - 1 - 1) / 4) + p.val; omega)
      (fun j => ⟨j.val, by omega⟩) (fun j => by show j.val = 2048 * ((t.val - 1 - 1 - 1) % 4) + j.val; omega)).trans
      (congrArg (· + ∑ j : Fin 2048, termL0 V c R q ⟨j.val, by omega⟩) (payL0_reset p q)))
  rw [Gcn.sum_four_blocks (termL0 V c R q)]
  exact e3.trans (congrArg (· + _) (e2.trans (congrArg (· + _) (e1.trans (congrArg (· + _) e0)))))

def layerArrL0 (c : Dev nD) : Buf (Elt Ideal) ((cfg0.win 4).arr.view.loc (c.tc : Thread nD τ)) :=
  fun i => Gcn.layer (adjL0 V c) (nodesL0 V c) (weightsL0 V c) (biasRowL0 V c) (ValueIdx.idxEquiv2 i).1 (ValueIdx.idxEquiv2 i).2

theorem layerArrL0_blk (c : Dev nD) (t : Fin cfg0.N) (p : Fin 1024) (q : Fin 16) (R : Fin 8192)
    (hR : R.val = 1024 * (t.val / 4) + p.val) :
    layerArrL0 V c (((cfg0.win 4).blk t).view.emb (ValueIdx.ix2 p q))
      = Gcn.layer (adjL0 V c) (nodesL0 V c) (weightsL0 V c) (biasRowL0 V c) R q := by
  obtain ⟨-, -, -, -, -, -, -, -, e8, e9⟩ := idxL0 t
  unfold layerArrL0
  refine congrArg₂ (Gcn.layer (adjL0 V c) (nodesL0 V c) (weightsL0 V c) (biasRowL0 V c)) (Fin.ext ?_) (Fin.ext ?_)
  · show win0_4.index t (0 : Fin 2) * 1024 + 1 * p.val = R.val
    rw [e8, hR]; omega
  · show win0_4.index t (1 : Fin 2) * S1024x16.size 1 + 1 * q.val = q.val
    rw [e9, Nat.zero_mul, Nat.zero_add, Nat.one_mul]

theorem flushedL0_at (c : Dev nD) (t : Fin cfg0.N) (h3 : t.val % 4 = 3) (p : Fin 1024) (q : Fin 16) :
    (datL0 V c).flushed 4 t (ValueIdx.ix2 p q)
      = ((cfg0.win 4).blk t).view.read (Elt Ideal) (layerArrL0 V c) (ValueIdx.ix2 p q) := by
  have hN : cfg0.N = 32 := N_0
  have ht := t.isLt
  have hp := p.isLt
  show (datL0 V c).after 4 t (ValueIdx.ix2 p q) = _
  refine (congrFun (datL0_after_4 V c t) (ValueIdx.ix2 p q)).trans ?_
  refine (congrFun (accAtL0_out V c t h3) (ValueIdx.ix2 p q)).trans ?_
  refine (payL0_out _ p q).trans ?_
  rw [View.read_apply]
  show _ = layerArrL0 V c (((cfg0.win 4).blk t).view.emb (ValueIdx.ix2 p q))
  rw [layerArrL0_blk V c t p q ⟨1024 * (t.val / 4) + p.val, by omega⟩ rfl,
    accL0_last V c t h3 p q ⟨1024 * (t.val / 4) + p.val, by omega⟩ rfl]
  rfl

theorem flushL0_iff : ∀ t : Fin cfg0.N, (cfg0.win 4).flush t = true ↔ t.val % 4 = 3 :=
  (by decide +kernel : ∀ t : Fin grid0.N, win0_4.flush t = true ↔ t.val % 4 = 3)

theorem flushedL0_eq (c : Dev nD) (t : Fin cfg0.N) (hf : (cfg0.win 4).flush t = true) :
    (datL0 V c).flushed 4 t = ((cfg0.win 4).blk t).view.read (Elt Ideal) (layerArrL0 V c) := by
  have h3 : t.val % 4 = 3 := (flushL0_iff t).mp hf
  refine funext fun (y : S1024x16.Idx) => ?_
  rw [ValueIdx.eq_ix2 y]
  exact flushedL0_at V c t h3 (y 0) (y 1)

theorem memL0_blk (t : Fin cfg0.N) (row : Fin 8192) (col : Fin 16) :
    ValueIdx.ix2 row col ∈ ((cfg0.win 4).blk t).view.set
      ↔ ∀ a : Fin 2, win0_4.index t a * S1024x16.size a ≤ (ValueIdx.ix2 row col a).val
          ∧ (ValueIdx.ix2 row col a).val < win0_4.index t a * S1024x16.size a + S1024x16.size a := by
  show ValueIdx.ix2 row col ∈ ((View.whole (Pipeline.arrRef spec0 4)).slice (win0_4.rect t)).set ↔ _
  rw [View.set_slice_whole, Rect.mem_set_unit]
  exact Iff.rfl

/-- What the layer leaves in its output array is the layer of the specification: row r lies in the output block of point 4 (r / 1024) + 3. -/
theorem layerL0_value (V : (c : Dev nD) → (b : Ref sig .tc) → Buf (Elt Ideal) ((c : Thread nD τ).loc b)) (c : Dev nD) (row : Fin 8192) (col : Fin 16) :
    (datL0 (F := Ideal) V c).arrAt 4 cfg0.N (ValueIdx.ix2 row col)
      = Gcn.layer (fun a b => V c (Pipeline.arrRef spec0 0) (ValueIdx.ix2 a b)) (fun a b => V c (Pipeline.arrRef spec0 1) (ValueIdx.ix2 a b))
          (fun a b => V c (Pipeline.arrRef spec0 2) (ValueIdx.ix2 a b)) (fun b => V c (Pipeline.arrRef spec0 3) (ValueIdx.ix2 (0 : Fin 1) b)) row col := by
  have hN : cfg0.N = 32 := N_0
  have hr := row.isLt
  have hc := col.isLt
  have lt : 4 * (row.val / 1024) + 3 < cfg0.N := by omega
  obtain ⟨-, -, -, -, -, -, -, -, e8, e9⟩ := idxL0 ⟨4 * (row.val / 1024) + 3, lt⟩
  have hf : (cfg0.win 4).flush ⟨4 * (row.val / 1024) + 3, lt⟩ = true :=
    (flushL0_iff ⟨4 * (row.val / 1024) + 3, lt⟩).mpr (by show (4 * (row.val / 1024) + 3) % 4 = 3; omega)
  have hm : ValueIdx.ix2 row col ∈ ((cfg0.win 4).blk ⟨4 * (row.val / 1024) + 3, lt⟩).view.set := by
    rw [memL0_blk]
    intro a
    match a with
    | ⟨0, _⟩ =>
      show win0_4.index ⟨4 * (row.val / 1024) + 3, lt⟩ (0 : Fin 2) * 1024 ≤ row.val
        ∧ row.val < win0_4.index ⟨4 * (row.val / 1024) + 3, lt⟩ (0 : Fin 2) * 1024 + 1024
      rw [e8]; show (4 * (row.val / 1024) + 3) / 4 * 1024 ≤ row.val ∧ row.val < (4 * (row.val / 1024) + 3) / 4 * 1024 + 1024; omega
    | ⟨1, _⟩ =>
      show win0_4.index ⟨4 * (row.val / 1024) + 3, lt⟩ (1 : Fin 2) * S1024x16.size 1 ≤ col.val
        ∧ col.val < win0_4.index ⟨4 * (row.val / 1024) + 3, lt⟩ (1 : Fin 2) * S1024x16.size 1 + S1024x16.size 1
      rw [e9, Nat.zero_mul, Nat.zero_add]; exact ⟨Nat.zero_le _, col.isLt⟩
  exact (datL0 V c).arrAt_apply_of_mem 4 (layerArrL0 V c) (flushedL0_eq V c) cfg0.N ⟨4 * (row.val / 1024) + 3, lt⟩
    (ValueIdx.ix2 row col) lt hf hm

end Cert.KernelIdeal.Gcn
end
-- ==== Proof.KI.L1ValuePay.lean ====
import proofs.«114493_j18348100288854_1_alg».proof.Proof.KI.L1Setup
import proofs.«114493_j18348100288854_1_alg».proof.Proof.MatMul
import Idealize.ShloMosaic.Lib.Pipeline.Value
import Idealize.ShloMosaic.Lib.ValueLayout

set_option maxRecDepth 16384

noncomputable section

namespace Cert.KernelIdeal.Gcn

open Idealize.ShloMosaic Idealize.ShloMosaic.TcCoe
open Cert.KernelIdeal Cert.KernelIdeal.Gen

theorem biasL1_apply {α : Type} (b : S1x32.Idx → α) (j : Fin 2048) (q : Fin 32) :
    broadcastTo S2048x32 b broadcasts_S1x32_S2048x32 (ValueIdx.ix2 j q) = b (ValueIdx.ix2 (0 : Fin 1) q) :=
  broadcastTo_apply b broadcasts_S1x32_S2048x32 (ValueIdx.ix2 j q) (ValueIdx.ix2 (0 : Fin 1) q) (fun a => by
    match a with
    | ⟨0, _⟩ => rfl
    | ⟨1, _⟩ => rfl)

theorem payL1_reset (p : Fin 1024) (q : Fin 32) : k1_pay1 (F := Ideal) (ValueIdx.ix2 p q) = 0 := by
  unfold k1_pay1
  simp only [shapeCast_self]
  exact Ideal.ofBits_zero_f32

/-- One accumulation step adds a · (x · W + b) to the accumulator; the changes of float format in between are the identity. -/
theorem payL1_step (xt : Vec Ideal S2048x16 .f32) (wt : Vec Ideal S16x32 .f32) (bt : Vec Ideal S1x32 .f32)
    (at' : Vec Ideal S1024x2048 .f32) (acc : Vec Ideal S1024x32 .f32) (p : Fin 1024) (q : Fin 32) :
    k1_pay2 xt wt bt at' acc (ValueIdx.ix2 p q)
      = acc (ValueIdx.ix2 p q) + ∑ j : Fin 2048, at' (ValueIdx.ix2 p j)
          * ((∑ d : Fin 16, xt (ValueIdx.ix2 j d) * wt (ValueIdx.ix2 d q)) + bt (ValueIdx.ix2 (0 : Fin 1) q)) := by
  unfold k1_pay2
  simp only [shapeCast_self]
  refine congrArg (acc (ValueIdx.ix2 p q) + ·) ?_
  refine (Gcn.matmul_zero_ix2 dot_S1024x2048_S2048x32_S1024x32_1_0_0_1_n_n rfl rfl (fun _ _ => rfl) (fun _ _ => rfl)
    (fun _ _ => rfl) (fun _ _ => rfl) _ _ p q).trans ?_
  refine Finset.sum_congr rfl fun j _ => ?_
  refine congrArg (at' (ValueIdx.ix2 p j) * ·) ?_
  exact congrArg₂ (· + ·) (Gcn.matmul_zero_ix2 dot_S2048x16_S16x32_S2048x32_1_0_0_1_n_n rfl rfl (fun _ _ => rfl)
    (fun _ _ => rfl) (fun _ _ => rfl) (fun _ _ => rfl) _ _ j q) (biasL1_apply bt j q)

theorem payL1_out (acc : Vec Ideal S1024x32 .f32) (p : Fin 1024) (q : Fin 32) :
    k1_pay3 acc (ValueIdx.ix2 p q) = max (acc (ValueIdx.ix2 p q)) 0 := by
  unfold k1_pay3
  exact congrArg (max (acc (ValueIdx.ix2 p q)) ·) Ideal.ofBits_zero_f32

end Cert.KernelIdeal.Gcn
end
-- ==== Proof.KI.L1Value.lean ====
import proofs.«114493_j18348100288854_1_alg».proof.Proof.KI.L1Body
import proofs.«114493_j18348100288854_1_alg».proof.Proof.KI.L1ValuePay
import proofs.«114493_j18348100288854_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Idealize.ShloMosaic Idealize.ShloMosaic.TcCoe
open Cert.KernelIdeal Cert.KernelIdeal.Gen

variable (V : (c : Dev nD) → (b : Ref sig .tc) → Buf (Elt Ideal) ((c : Thread nD τ).loc b))

abbrev adjL1 (c : Dev nD) : Fin 8192 → Fin 8192 → EReal := fun a b => V c (Pipeline.arrRef spec1 0) (ValueIdx.ix2 a b)
abbrev nodesL1 (c : Dev nD) : Fin 8192 → Fin 16 → EReal := fun a b => V c (Pipeline.arrRef spec1 1) (ValueIdx.ix2 a b)
abbrev weightsL1 (c : Dev nD) : Fin 16 → Fin 32 → EReal := fun a b => V c (Pipeline.arrRef spec1 2) (ValueIdx.ix2 a b)
abbrev biasRowL1 (c : Dev nD) : Fin 32 → EReal := fun b => V c (Pipeline.arrRef spec1 3) (ValueIdx.ix2 (0 : Fin 1) b)

abbrev termL1 (c : Dev nD) (R : Fin 8192) (q : Fin 32) (J : Fin 8192) : EReal :=
  adjL1 V c R J * Gcn.affine (nodesL1 V c) (weightsL1 V c) (biasRowL1 V c) J q

theorem idxL1 : ∀ t : Fin cfg1.N,
    win1_0.index t (0 : Fin 2) = t.val / 4 ∧ win1_0.index t (1 : Fin 2) = t.val % 4
    ∧ win1_1.index t (0 : Fin 2) = t.val % 4 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val / 4 ∧ win1_4.index t (1 : Fin 2) = 0 :=
  (by decide +kernel : ∀ t : Fin grid1.N, _)

theorem tileL1_adj (c : Dev nD) (t : Fin cfg1.N) (p : Fin 1024) (j : Fin 2048) (R J : Fin 8192)
    (hR : R.val = 1024 * (t.val / 4) + p.val) (hJ : J.val = 2048 * (t.val % 4) + j.val) :
    (tileL1 V c 0 t : Vec Ideal S1024x2048 .f32) (ValueIdx.ix2 p j) = adjL1 V c R J := by
  obtain ⟨e0, e1, -⟩ := idxL1 t
  unfold tileL1
  rw [View.read_apply]
  show V c (Pipeline.arrRef spec1 0) (((cfg1.win 0).blk t).view.emb (ValueIdx.ix2 p j)) = V c (Pipeline.arrRef spec1 0) (ValueIdx.ix2 R J)
  refine congrArg (V c (Pipeline.arrRef spec1 0)) (funext fun a => Fin.ext ?_)
  match a with
  | ⟨0, _⟩ => show win1_0.index t (0 : Fin 2) * 1024 + 1 * p.val = R.val; rw [e0, hR]; omega
  | ⟨1, _⟩ => show win1_0.index t (1 : Fin 2) * 2048 + 1 * j.val = J.val; rw [e1, hJ]; omega

theorem tileL1_nodes (c : Dev nD) (t : Fin cfg1.N) (j : Fin 2048) (d : Fin 16) (J : Fin 8192)
    (hJ : J.val = 2048 * (t.val % 4) + j.val) :
    (tileL1 V c 1 t : Vec Ideal S2048x16 .f32) (ValueIdx.ix2 j d) = nodesL1 V c J d := by
  obtain ⟨-, -, e2, e3, -⟩ := idxL1 t
  unfold tileL1
  rw [View.read_apply]
  show V c (Pipeline.arrRef spec1 1) (((cfg1.win 1).blk t).view.emb (ValueIdx.ix2 j d)) = V c (Pipeline.arrRef spec1 1) (ValueIdx.ix2 J d)
  refine congrArg (V c (Pipeline.arrRef spec1 1)) (funext fun a => Fin.ext ?_)
  match a with
  | ⟨0, _⟩ => show win1_1.index t (0 : Fin 2) * 2048 + 1 * j.val = J.val; rw [e2, hJ]; omega
  | ⟨1, _⟩ => show win1_1.index t (1 : Fin 2) * S2048x16.size 1 + 1 * d.val = d.val; rw [e3, Nat.zero_mul, Nat.zero_add, Nat.one_mul]

theorem tileL1_weights (c : Dev nD) (t : Fin cfg1.N) (d : Fin 16) (q : Fin 32) :
    (tileL1 V c 2 t : Vec Ideal S16x32 .f32) (ValueIdx.ix2 d q) = weightsL1 V c d q := by
  obtain ⟨-, -, -, -, e4, e5, -⟩ := idxL1 t
  unfold tileL1
  rw [View.read_apply]
  show V c (Pipeline.arrRef spec1 2) (((cfg1.win 2).blk t).view.emb (ValueIdx.ix2 d q)) = V c (Pipeline.arrRef spec1 2) (ValueIdx.ix2 d q)
  refine congrArg (V c (Pipeline.arrRef spec1 2)) (funext fun a => Fin.ext ?_)
  match a with
  | ⟨0, _⟩ => show win1_2.index t (0 : Fin 2) * S16x32.size 0 + 1 * d.val = d.val; rw [e4, Nat.zero_mul, Nat.zero_add, Nat.one_mul]
  | ⟨1, _⟩ => show win1_2.index t (1 : Fin 2) * S16x32.size 1 + 1 * q.val = q.val; rw [e5, Nat.zero_mul, Nat.zero_add, Nat.one_mul]

theorem tileL1_bias (c : Dev nD) (t : Fin cfg1.N) (q : Fin 32) :
    (tileL1 V c 3 t : Vec Ideal S1x32 .f32) (ValueIdx.ix2 (0 : Fin 1) q) = biasRowL1 V c q := by
  obtain ⟨-, -, -, -, -, -, e6, e7, -⟩ := idxL1 t
  unfold tileL1
  rw [View.read_apply]
  show V c (Pipeline.arrRef spec1 3) (((cfg1.win 3).blk t).view.emb (ValueIdx.ix2 (0 : Fin 1) q)) = V c (Pipeline.arrRef spec1 3) (ValueIdx.ix2 (0 : Fin 1) q)
  refine congrArg (V c (Pipeline.arrRef spec1 3)) (funext fun a => Fin.ext ?_)
  match a with
  | ⟨0, _⟩ => show win1_3.index t (0 : Fin 2) * S1x32.size 0 + 1 * (0 : Fin 1).val = (0 : Fin 1).val; rw [e6, Nat.zero_mul, Nat.zero_add, Nat.one_mul]
  | ⟨1, _⟩ => show win1_3.index t (1 : Fin 2) * S1x32.size 1 + 1 * q.val = q.val; rw [e7, Nat.zero_mul, Nat.zero_add, Nat.one_mul]

/-- Point t = 4 i + k adds, at (p, q), the part of row 1024 i + p of the layer's sum that runs over the nodes of column block k. -/
theorem stepL1 (c : Dev nD) (t : Fin cfg1.N) (acc : Vec Ideal S1024x32 .f32) (p : Fin 1024) (q : Fin 32) (R : Fin 8192)
    (hR : R.val = 1024 * (t.val / 4) + p.val) (Jf : Fin 2048 → Fin 8192) (hJ : ∀ j, (Jf j).val = 2048 * (t.val % 4) + j.val) :
    k1_pay2 (tileL1 V c 1 t) (tileL1 V c 2 t) (tileL1 V c 3 t) (tileL1 V c 0 t) acc (ValueIdx.ix2 p q)
      = acc (ValueIdx.ix2 p q) + ∑ j : Fin 2048, termL1 V c R q (Jf j) := by
  refine (payL1_step (tileL1 V c 1 t) (tileL1 V c 2 t) (tileL1 V c 3 t) (tileL1 V c 0 t) acc p q).trans ?_
  refine congrArg (acc (ValueIdx.ix2 p q) + ·) (Finset.sum_congr rfl fun j _ => ?_)
  refine congrArg₂ (· * ·) (tileL1_adj V c t p j R (Jf j) hR (hJ j)) ?_
  refine congrArg₂ (· + ·) (Finset.sum_congr rfl fun d _ => ?_) (tileL1_bias V c t q)
  exact congrArg₂ (· * ·) (tileL1_nodes V c t j d (Jf j) (hJ j)) (tileL1_weights V c t d q)

/-- After the last point of a row block the accumulator holds the whole row sums: zero plus the four blocks' partial sums in order. -/
theorem accL1_last (c : Dev nD) (t : Fin cfg1.N) (h3 : t.val % 4 = 3) (p : Fin 1024) (q : Fin 32) (R : Fin 8192)
    (hR : R.val = 1024 * (t.val / 4) + p.val) :
    (accAtL1 V c t.val t.isLt).2 (ValueIdx.ix2 p q) = ∑ J : Fin 8192, termL1 V c R q J := by
  have hN : cfg1.N = 32 := N_1
  have ht := t.isLt
  have l1 : t.val - 1 < cfg1.N := by omega
  have l2 : t.val - 1 - 1 < cfg1.N := by omega
  have l3 : t.val - 1 - 1 - 1 < cfg1.N := by omega
  have e3 := (congrFun (accAtL1_next V c t (by omega)) (ValueIdx.ix2 p q)).trans
    (stepL1 V c t _ p q R hR (fun j => ⟨6144 + j.val, by omega⟩) (fun j => by show 6144 + j.val = _; omega))
  have e2 := (congrFun (accAtL1_next V c ⟨t.val - 1, l1⟩ (by show ¬(t.val - 1) % 4 = 0; omega)) (ValueIdx.ix2 p q)).trans
    (stepL1 V c ⟨t.val - 1, l1⟩ _ p q R (by show R.val = 1024 * ((t.val - 1) / 4) + p.val; omega)
      (fun j => ⟨4096 + j.val, by omega⟩) (fun j => by show 4096 + j.val = 2048 * ((t.val - 1) % 4) + j.val; omega))
  have e1 := (congrFun (accAtL1_next V c ⟨t.val - 1 - 1, l2⟩ (by show ¬(t.val - 1 - 1) % 4 = 0; omega)) (ValueIdx.ix2 p q)).trans
    (stepL1 V c ⟨t.val - 1 - 1, l2⟩ _ p q R (by show R.val = 1024 * ((t.val - 1 - 1) / 4) + p.val; omega)
      (fun j => ⟨2048 + j.val, by omega⟩) (fun j => by show 2048 + j.val = 2048 * ((t.val - 1 - 1) % 4) + j.val; omega))
  have e0 := (congrFun (accAtL1_first V c ⟨t.val - 1 - 1 - 1, l3⟩ (by show (t.val - 1 - 1 - 1) % 4 = 0; omega)) (ValueIdx.ix2 p q)).trans
    ((stepL1 V c ⟨t.val - 1 - 1 - 1, l3⟩ (k1_pay1 (F := Ideal)) p q R (by show R.val = 1024 * ((t.val - 1 - 1 - 1) / 4) + p.val; omega)
      (fun j => ⟨j.val, by omega⟩) (fun j => by show j.val = 2048 * ((t.val - 1 - 1 - 1) % 4) + j.val; omega)).trans
      (congrArg (· + ∑ j : Fin 2048, termL1 V c R q ⟨j.val, by omega⟩) (payL1_reset p q)))
  rw [Gcn.sum_four_blocks (termL1 V c R q)]
  exact e3.trans (congrArg (· + _) (e2.trans (congrArg (· + _) (e1.trans (congrArg (· + _) e0)))))

def layerArrL1 (c : Dev nD) : Buf (Elt Ideal) ((cfg1.win 4).arr.view.loc (c.tc : Thread nD τ)) :=
  fun i => Gcn.layer (adjL1 V c) (nodesL1 V c) (weightsL1 V c) (biasRowL1 V c) (ValueIdx.idxEquiv2 i).1 (ValueIdx.idxEquiv2 i).2

theorem layerArrL1_blk (c : Dev nD) (t : Fin cfg1.N) (p : Fin 1024) (q : Fin 32) (R : Fin 8192)
    (hR : R.val = 1024 * (t.val / 4) + p.val) :
    layerArrL1 V c (((cfg1.win 4).blk t).view.emb (ValueIdx.ix2 p q))
      = Gcn.layer (adjL1 V c) (nodesL1 V c) (weightsL1 V c) (biasRowL1 V c) R q := by
  obtain ⟨-, -, -, -, -, -, -, -, e8, e9⟩ := idxL1 t
  unfold layerArrL1
  refine congrArg₂ (Gcn.layer (adjL1 V c) (nodesL1 V c) (weightsL1 V c) (biasRowL1 V c)) (Fin.ext ?_) (Fin.ext ?_)
  · show win1_4.index t (0 : Fin 2) * 1024 + 1 * p.val = R.val
    rw [e8, hR]; omega
  · show win1_4.index t (1 : Fin 2) * S1024x32.size 1 + 1 * q.val = q.val
    rw [e9, Nat.zero_mul, Nat.zero_add, Nat.one_mul]

theorem flushedL1_at (c : Dev nD) (t : Fin cfg1.N) (h3 : t.val % 4 = 3) (p : Fin 1024) (q : Fin 32) :
    (datL1 V c).flushed 4 t (ValueIdx.ix2 p q)
      = ((cfg1.win 4).blk t).view.read (Elt Ideal) (layerArrL1 V c) (ValueIdx.ix2 p q) := by
  have hN : cfg1.N = 32 := N_1
  have ht := t.isLt
  have hp := p.isLt
  show (datL1 V c).after 4 t (ValueIdx.ix2 p q) = _
  refine (congrFun (datL1_after_4 V c t) (ValueIdx.ix2 p q)).trans ?_
  refine (congrFun (accAtL1_out V c t h3) (ValueIdx.ix2 p q)).trans ?_
  refine (payL1_out _ p q).trans ?_
  rw [View.read_apply]
  show _ = layerArrL1 V c (((cfg1.win 4).blk t).view.emb (ValueIdx.ix2 p q))
  rw [layerArrL1_blk V c t p q ⟨1024 * (t.val / 4) + p.val, by omega⟩ rfl,
    accL1_last V c t h3 p q ⟨1024 * (t.val / 4) + p.val, by omega⟩ rfl]
  rfl

theorem flushL1_iff : ∀ t : Fin cfg1.N, (cfg1.win 4).flush t = true ↔ t.val % 4 = 3 :=
  (by decide +kernel : ∀ t : Fin grid1.N, win1_4.flush t = true ↔ t.val % 4 = 3)

theorem flushedL1_eq (c : Dev nD) (t : Fin cfg1.N) (hf : (cfg1.win 4).flush t = true) :
    (datL1 V c).flushed 4 t = ((cfg1.win 4).blk t).view.read (Elt Ideal) (layerArrL1 V c) := by
  have h3 : t.val % 4 = 3 := (flushL1_iff t).mp hf
  refine funext fun (y : S1024x32.Idx) => ?_
  rw [ValueIdx.eq_ix2 y]
  exact flushedL1_at V c t h3 (y 0) (y 1)

theorem memL1_blk (t : Fin cfg1.N) (row : Fin 8192) (col : Fin 32) :
    ValueIdx.ix2 row col ∈ ((cfg1.win 4).blk t).view.set
      ↔ ∀ a : Fin 2, win1_4.index t a * S1024x32.size a ≤ (ValueIdx.ix2 row col a).val
          ∧ (ValueIdx.ix2 row col a).val < win1_4.index t a * S1024x32.size a + S1024x32.size a := by
  show ValueIdx.ix2 row col ∈ ((View.whole (Pipeline.arrRef spec1 4)).slice (win1_4.rect t)).set ↔ _
  rw [View.set_slice_whole, Rect.mem_set_unit]
  exact Iff.rfl

/-- What the layer leaves in its output array is the layer of the specification: row r lies in the output block of point 4 (r / 1024) + 3. -/
theorem layerL1_value (V : (c : Dev nD) → (b : Ref sig .tc) → Buf (Elt Ideal) ((c : Thread nD τ).loc b)) (c : Dev nD) (row : Fin 8192) (col : Fin 32) :
    (datL1 (F := Ideal) V c).arrAt 4 cfg1.N (ValueIdx.ix2 row col)
      = Gcn.layer (fun a b => V c (Pipeline.arrRef spec1 0) (ValueIdx.ix2 a b)) (fun a b => V c (Pipeline.arrRef spec1 1) (ValueIdx.ix2 a b))
          (fun a b => V c (Pipeline.arrRef spec1 2) (ValueIdx.ix2 a b)) (fun b => V c (Pipeline.arrRef spec1 3) (ValueIdx.ix2 (0 : Fin 1) b)) row col := by
  have hN : cfg1.N = 32 := N_1
  have hr := row.isLt
  have hc := col.isLt
  have lt : 4 * (row.val / 1024) + 3 < cfg1.N := by omega
  obtain ⟨-, -, -, -, -, -, -, -, e8, e9⟩ := idxL1 ⟨4 * (row.val / 1024) + 3, lt⟩
  have hf : (cfg1.win 4).flush ⟨4 * (row.val / 1024) + 3, lt⟩ = true :=
    (flushL1_iff ⟨4 * (row.val / 1024) + 3, lt⟩).mpr (by show (4 * (row.val / 1024) + 3) % 4 = 3; omega)
  have hm : ValueIdx.ix2 row col ∈ ((cfg1.win 4).blk ⟨4 * (row.val / 1024) + 3, lt⟩).view.set := by
    rw [memL1_blk]
    intro a
    match a with
    | ⟨0, _⟩ =>
      show win1_4.index ⟨4 * (row.val / 1024) + 3, lt⟩ (0 : Fin 2) * 1024 ≤ row.val
        ∧ row.val < win1_4.index ⟨4 * (row.val / 1024) + 3, lt⟩ (0 : Fin 2) * 1024 + 1024
      rw [e8]; show (4 * (row.val / 1024) + 3) / 4 * 1024 ≤ row.val ∧ row.val < (4 * (row.val / 1024) + 3) / 4 * 1024 + 1024; omega
    | ⟨1, _⟩ =>
      show win1_4.index ⟨4 * (row.val / 1024) + 3, lt⟩ (1 : Fin 2) * S1024x32.size 1 ≤ col.val
        ∧ col.val < win1_4.index ⟨4 * (row.val / 1024) + 3, lt⟩ (1 : Fin 2) * S1024x32.size 1 + S1024x32.size 1
      rw [e9, Nat.zero_mul, Nat.zero_add]; exact ⟨Nat.zero_le _, col.isLt⟩
  exact (datL1 V c).arrAt_apply_of_mem 4 (layerArrL1 V c) (flushedL1_eq V c) cfg1.N ⟨4 * (row.val / 1024) + 3, lt⟩
    (ValueIdx.ix2 row col) lt hf hm

end Cert.KernelIdeal.Gcn
end
-- ==== Proof.KI.L2ValuePay.lean ====
import proofs.«114493_j18348100288854_1_alg».proof.Proof.KI.L2Setup
import proofs.«114493_j18348100288854_1_alg».proof.Proof.MatMul
import Idealize.ShloMosaic.Lib.Pipeline.Value
import Idealize.ShloMosaic.Lib.ValueLayout

set_option maxRecDepth 16384

noncomputable section

namespace Cert.KernelIdeal.Gcn

open Idealize.ShloMosaic Idealize.ShloMosaic.TcCoe
open Cert.KernelIdeal Cert.KernelIdeal.Gen

theorem biasL2_apply {α : Type} (b : S1x64.Idx → α) (j : Fin 2048) (q : Fin 64) :
    broadcastTo S2048x64 b broadcasts_S1x64_S2048x64 (ValueIdx.ix2 j q) = b (ValueIdx.ix2 (0 : Fin 1) q) :=
  broadcastTo_apply b broadcasts_S1x64_S2048x64 (ValueIdx.ix2 j q) (ValueIdx.ix2 (0 : Fin 1) q) (fun a => by
    match a with
    | ⟨0, _⟩ => rfl
    | ⟨1, _⟩ => rfl)

theorem payL2_reset (p : Fin 1024) (q : Fin 64) : k2_pay1 (F := Ideal) (ValueIdx.ix2 p q) = 0 := by
  unfold k2_pay1
  simp only [shapeCast_self]
  exact Ideal.ofBits_zero_f32

/-- One accumulation step adds a · (x · W + b) to the accumulator; the changes of float format in between are the identity. -/
theorem payL2_step (xt : Vec Ideal S2048x32 .f32) (wt : Vec Ideal S32x64 .f32) (bt : Vec Ideal S1x64 .f32)
    (at' : Vec Ideal S1024x2048 .f32) (acc : Vec Ideal S1024x64 .f32) (p : Fin 1024) (q : Fin 64) :
    k2_pay2 xt wt bt at' acc (ValueIdx.ix2 p q)
      = acc (ValueIdx.ix2 p q) + ∑ j : Fin 2048, at' (ValueIdx.ix2 p j)
          * ((∑ d : Fin 32, xt (ValueIdx.ix2 j d) * wt (ValueIdx.ix2 d q)) + bt (ValueIdx.ix2 (0 : Fin 1) q)) := by
  unfold k2_pay2
  simp only [shapeCast_self]
  refine congrArg (acc (ValueIdx.ix2 p q) + ·) ?_
  refine (Gcn.matmul_zero_ix2 dot_S1024x2048_S2048x64_S1024x64_1_0_0_1_n_n rfl rfl (fun _ _ => rfl) (fun _ _ => rfl)
    (fun _ _ => rfl) (fun _ _ => rfl) _ _ p q).trans ?_
  refine Finset.sum_congr rfl fun j _ => ?_
  refine congrArg (at' (ValueIdx.ix2 p j) * ·) ?_
  exact congrArg₂ (· + ·) (Gcn.matmul_zero_ix2 dot_S2048x32_S32x64_S2048x64_1_0_0_1_n_n rfl rfl (fun _ _ => rfl)
    (fun _ _ => rfl) (fun _ _ => rfl) (fun _ _ => rfl) _ _ j q) (biasL2_apply bt j q)

theorem payL2_out (acc : Vec Ideal S1024x64 .f32) (p : Fin 1024) (q : Fin 64) :
    k2_pay3 acc (ValueIdx.ix2 p q) = max (acc (ValueIdx.ix2 p q)) 0 := by
  unfold k2_pay3
  exact congrArg (max (acc (ValueIdx.ix2 p q)) ·) Ideal.ofBits_zero_f32

end Cert.KernelIdeal.Gcn
end
-- ==== Proof.KI.L2Value.lean ====
import proofs.«114493_j18348100288854_1_alg».proof.Proof.KI.L2Body
import proofs.«114493_j18348100288854_1_alg».proof.Proof.KI.L2ValuePay
import proofs.«114493_j18348100288854_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Gcn

open Idealize.ShloMosaic Idealize.ShloMosaic.TcCoe
open Cert.KernelIdeal Cert.KernelIdeal.Gen

variable (V : (c : Dev nD) → (b : Ref sig .tc) → Buf (Elt Ideal) ((c : Thread nD τ).loc b))

abbrev adjL2 (c : Dev nD) : Fin 8192 → Fin 8192 → EReal := fun a b => V c (Pipeline.arrRef spec2 0) (ValueIdx.ix2 a b)
abbrev nodesL2 (c : Dev nD) : Fin 8192 → Fin 32 → EReal := fun a b => V c (Pipeline.arrRef spec2 1) (ValueIdx.ix2 a b)
abbrev weightsL2 (c : Dev nD) : Fin 32 → Fin 64 → EReal := fun a b => V c (Pipeline.arrRef spec2 2) (ValueIdx.ix2 a b)
abbrev biasRowL2 (c : Dev nD) : Fin 64 → EReal := fun b => V c (Pipeline.arrRef spec2 3) (ValueIdx.ix2 (0 : Fin 1) b)

abbrev termL2 (c : Dev nD) (R : Fin 8192) (q : Fin 64) (J : Fin 8192) : EReal :=
  adjL2 V c R J * Gcn.affine (nodesL2 V c) (weightsL2 V c) (biasRowL2 V c) J q

theorem idxL2 : ∀ t : Fin cfg2.N,
    win2_0.index t (0 : Fin 2) = t.val / 4 ∧ win2_0.index t (1 : Fin 2) = t.val % 4
    ∧ win2_1.index t (0 : Fin 2) = t.val % 4 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = t.val / 4 ∧ win2_4.index t (1 : Fin 2) = 0 :=
  (by decide +kernel : ∀ t : Fin grid2.N, _)

theorem tileL2_adj (c : Dev nD) (t : Fin cfg2.N) (p : Fin 1024) (j : Fin 2048) (R J : Fin 8192)
    (hR : R.val = 1024 * (t.val / 4) + p.val) (hJ : J.val = 2048 * (t.val % 4) + j.val) :
    (tileL2 V c 0 t : Vec Ideal S1024x2048 .f32) (ValueIdx.ix2 p j) = adjL2 V c R J := by
  obtain ⟨e0, e1, -⟩ := idxL2 t
  unfold tileL2
  rw [View.read_apply]
  show V c (Pipeline.arrRef spec2 0) (((cfg2.win 0).blk t).view.emb (ValueIdx.ix2 p j)) = V c (Pipeline.arrRef spec2 0) (ValueIdx.ix2 R J)
  refine congrArg (V c (Pipeline.arrRef spec2 0)) (funext fun a => Fin.ext ?_)
  match a with
  | ⟨0, _⟩ => show win2_0.index t (0 : Fin 2) * 1024 + 1 * p.val = R.val; rw [e0, hR]; omega
  | ⟨1, _⟩ => show win2_0.index t (1 : Fin 2) * 2048 + 1 * j.val = J.val; rw [e1, hJ]; omega

theorem tileL2_nodes (c : Dev nD) (t : Fin cfg2.N) (j : Fin 2048) (d : Fin 32) (J : Fin 8192)
    (hJ : J.val = 2048 * (t.val % 4) + j.val) :
    (tileL2 V c 1 t : Vec Ideal S2048x32 .f32) (ValueIdx.ix2 j d) = nodesL2 V c J d := by
  obtain ⟨-, -, e2, e3, -⟩ := idxL2 t
  unfold tileL2
  rw [View.read_apply]
  show V c (Pipeline.arrRef spec2 1) (((cfg2.win 1).blk t).view.emb (ValueIdx.ix2 j d)) = V c (Pipeline.arrRef spec2 1) (ValueIdx.ix2 J d)
  refine congrArg (V c (Pipeline.arrRef spec2 1)) (funext fun a => Fin.ext ?_)
  match a with
  | ⟨0, _⟩ => show win2_1.index t (0 : Fin 2) * 2048 + 1 * j.val = J.val; rw [e2, hJ]; omega
  | ⟨1, _⟩ => show win2_1.index t (1 : Fin 2) * S2048x32.size 1 + 1 * d.val = d.val; rw [e3, Nat.zero_mul, Nat.zero_add, Nat.one_mul]

theorem tileL2_weights (c : Dev nD) (t : Fin cfg2.N) (d : Fin 32) (q : Fin 64) :
    (tileL2 V c 2 t : Vec Ideal S32x64 .f32) (ValueIdx.ix2 d q) = weightsL2 V c d q := by
  obtain ⟨-, -, -, -, e4, e5, -⟩ := idxL2 t
  unfold tileL2
  rw [View.read_apply]
  show V c (Pipeline.arrRef spec2 2) (((cfg2.win 2).blk t).view.emb (ValueIdx.ix2 d q)) = V c (Pipeline.arrRef spec2 2) (ValueIdx.ix2 d q)
  refine congrArg (V c (Pipeline.arrRef spec2 2)) (funext fun a => Fin.ext ?_)
  match a with
  | ⟨0, _⟩ => show win2_2.index t (0 : Fin 2) * S32x64.size 0 + 1 * d.val = d.val; rw [e4, Nat.zero_mul, Nat.zero_add, Nat.one_mul]
  | ⟨1, _⟩ => show win2_2.index t (1 : Fin 2) * S32x64.size 1 + 1 * q.val = q.val; rw [e5, Nat.zero_mul, Nat.zero_add, Nat.one_mul]

theorem tileL2_bias (c : Dev nD) (t : Fin cfg2.N) (q : Fin 64) :
    (tileL2 V c 3 t : Vec Ideal S1x64 .f32) (ValueIdx.ix2 (0 : Fin 1) q) = biasRowL2 V c q := by
  obtain ⟨-, -, -, -, -, -, e6, e7, -⟩ := idxL2 t
  unfold tileL2
  rw [View.read_apply]
  show V c (Pipeline.arrRef spec2 3) (((cfg2.win 3).blk t).view.emb (ValueIdx.ix2 (0 : Fin 1) q)) = V c (Pipeline.arrRef spec2 3) (ValueIdx.ix2 (0 : Fin 1) q)
  refine congrArg (V c (Pipeline.arrRef spec2 3)) (funext fun a => Fin.ext ?_)
  match a with
  | ⟨0, _⟩ => show win2_3.index t (0 : Fin 2) * S1x64.size 0 + 1 * (0 : Fin 1).val = (0 : Fin 1).val; rw [e6, Nat.zero_mul, Nat.zero_add, Nat.one_mul]
  | ⟨1, _⟩ => show win2_3.index t (1 : Fin 2) * S1x64.size 1 + 1 * q.val = q.val; rw [e7, Nat.zero_mul, Nat.zero_add, Nat.one_mul]

/-- Point t = 4 i + k adds, at (p, q), the part of row 1024 i + p of the layer's sum that runs over the nodes of column block k. -/
theorem stepL2 (c : Dev nD) (t : Fin cfg2.N) (acc : Vec Ideal S1024x64 .f32) (p : Fin 1024) (q : Fin 64) (R : Fin 8192)
    (hR : R.val = 1024 * (t.val / 4) + p.val) (Jf : Fin 2048 → Fin 8192) (hJ : ∀ j, (Jf j).val = 2048 * (t.val % 4) + j.val) :
    k2_pay2 (tileL2 V c 1 t) (tileL2 V c 2 t) (tileL2 V c 3 t) (tileL2 V c 0 t) acc (ValueIdx.ix2 p q)
      = acc (ValueIdx.ix2 p q) + ∑ j : Fin 2048, termL2 V c R q (Jf j) := by
  refine (payL2_step (tileL2 V c 1 t) (tileL2 V c 2 t) (tileL2 V c 3 t) (tileL2 V c 0 t) acc p q).trans ?_
  refine congrArg (acc (ValueIdx.ix2 p q) + ·) (Finset.sum_congr rfl fun j _ => ?_)
  refine congrArg₂ (· * ·) (tileL2_adj V c t p j R (Jf j) hR (hJ j)) ?_
  refine congrArg₂ (· + ·) (Finset.sum_congr rfl fun d _ => ?_) (tileL2_bias V c t q)
  exact congrArg₂ (· * ·) (tileL2_nodes V c t j d (Jf j) (hJ j)) (tileL2_weights V c t d q)

/-- After the last point of a row block the accumulator holds the whole row sums: zero plus the four blocks' partial sums in order. -/
theorem accL2_last (c : Dev nD) (t : Fin cfg2.N) (h3 : t.val % 4 = 3) (p : Fin 1024) (q : Fin 64) (R : Fin 8192)
    (hR : R.val = 1024 * (t.val / 4) + p.val) :
    (accAtL2 V c t.val t.isLt).2 (ValueIdx.ix2 p q) = ∑ J : Fin 8192, termL2 V c R q J := by
  have hN : cfg2.N = 32 := N_2
  have ht := t.isLt
  have l1 : t.val - 1 < cfg2.N := by omega
  have l2 : t.val - 1 - 1 < cfg2.N := by omega
  have l3 : t.val - 1 - 1 - 1 < cfg2.N := by omega
  have e3 := (congrFun (accAtL2_next V c t (by omega)) (ValueIdx.ix2 p q)).trans
    (stepL2 V c t _ p q R hR (fun j => ⟨6144 + j.val, by omega⟩) (fun j => by show 6144 + j.val = _; omega))
  have e2 := (congrFun (accAtL2_next V c ⟨t.val - 1, l1⟩ (by show ¬(t.val - 1) % 4 = 0; omega)) (ValueIdx.ix2 p q)).trans
    (stepL2 V c ⟨t.val - 1, l1⟩ _ p q R (by show R.val = 1024 * ((t.val - 1) / 4) + p.val; omega)
      (fun j => ⟨4096 + j.val, by omega⟩) (fun j => by show 4096 + j.val = 2048 * ((t.val - 1) % 4) + j.val; omega))
  have e1 := (congrFun (accAtL2_next V c ⟨t.val - 1 - 1, l2⟩ (by show ¬(t.val - 1 - 1) % 4 = 0; omega)) (ValueIdx.ix2 p q)).trans
    (stepL2 V c ⟨t.val - 1 - 1, l2⟩ _ p q R (by show R.val = 1024 * ((t.val - 1 - 1) / 4) + p.val; omega)
      (fun j => ⟨2048 + j.val, by omega⟩) (fun j => by show 2048 + j.val = 2048 * ((t.val - 1 - 1) % 4) + j.val; omega))
  have e0 := (congrFun (accAtL2_first V c ⟨t.val - 1 - 1 - 1, l3⟩ (by show (t.val - 1 - 1 - 1) % 4 = 0; omega)) (ValueIdx.ix2 p q)).trans
    ((stepL2 V c ⟨t.val - 1 - 1 - 1, l3⟩ (k2_pay1 (F := Ideal)) p q R (by show R.val = 1024 * ((t.val - 1 - 1 - 1) / 4) + p.val; omega)
      (fun j => ⟨j.val, by omega⟩) (fun j => by show j.val = 2048 * ((t.val - 1 - 1 - 1) % 4) + j.val; omega)).trans
      (congrArg (· + ∑ j : Fin 2048, termL2 V c R q ⟨j.val, by omega⟩) (payL2_reset p q)))
  rw [Gcn.sum_four_blocks (termL2 V c R q)]
  exact e3.trans (congrArg (· + _) (e2.trans (congrArg (· + _) (e1.trans (congrArg (· + _) e0)))))

def layerArrL2 (c : Dev nD) : Buf (Elt Ideal) ((cfg2.win 4).arr.view.loc (c.tc : Thread nD τ)) :=
  fun i => Gcn.layer (adjL2 V c) (nodesL2 V c) (weightsL2 V c) (biasRowL2 V c) (ValueIdx.idxEquiv2 i).1 (ValueIdx.idxEquiv2 i).2

theorem layerArrL2_blk (c : Dev nD) (t : Fin cfg2.N) (p : Fin 1024) (q : Fin 64) (R : Fin 8192)
    (hR : R.val = 1024 * (t.val / 4) + p.val) :
    layerArrL2 V c (((cfg2.win 4).blk t).view.emb (ValueIdx.ix2 p q))
      = Gcn.layer (adjL2 V c) (nodesL2 V c) (weightsL2 V c) (biasRowL2 V c) R q := by
  obtain ⟨-, -, -, -, -, -, -, -, e8, e9⟩ := idxL2 t
  unfold layerArrL2
  refine congrArg₂ (Gcn.layer (adjL2 V c) (nodesL2 V c) (weightsL2 V c) (biasRowL2 V c)) (Fin.ext ?_) (Fin.ext ?_)
  · show win2_4.index t (0 : Fin 2) * 1024 + 1 * p.val = R.val
    rw [e8, hR]; omega
  · show win2_4.index t (1 : Fin 2) * S1024x64.size 1 + 1 * q.val = q.val
    rw [e9, Nat.zero_mul, Nat.zero_add, Nat.one_mul]

theorem flushedL2_at (c : Dev nD) (t : Fin cfg2.N) (h3 : t.val % 4 = 3) (p : Fin 1024) (q : Fin 64) :
    (datL2 V c).flushed 4 t (ValueIdx.ix2 p q)
      = ((cfg2.win 4).blk t).view.read (Elt Ideal) (layerArrL2 V c) (ValueIdx.ix2 p q) := by
  have hN : cfg2.N = 32 := N_2
  have ht := t.isLt
  have hp := p.isLt
  show (datL2 V c).after 4 t (ValueIdx.ix2 p q) = _
  refine (congrFun (datL2_after_4 V c t) (ValueIdx.ix2 p q)).trans ?_
  refine (congrFun (accAtL2_out V c t h3) (ValueIdx.ix2 p q)).trans ?_
  refine (payL2_out _ p q).trans ?_
  rw [View.read_apply]
  show _ = layerArrL2 V c (((cfg2.win 4).blk t).view.emb (ValueIdx.ix2 p q))
  rw [layerArrL2_blk V c t p q ⟨1024 * (t.val / 4) + p.val, by omega⟩ rfl,
    accL2_last V c t h3 p q ⟨1024 * (t.val / 4) + p.val, by omega⟩ rfl]
  rfl

theorem flushL2_iff : ∀ t : Fin cfg2.N, (cfg2.win 4).flush t = true ↔ t.val % 4 = 3 :=
  (by decide +kernel : ∀ t : Fin grid2.N, win2_4.flush t = true ↔ t.val % 4 = 3)

theorem flushedL2_eq (c : Dev nD) (t : Fin cfg2.N) (hf : (cfg2.win 4).flush t = true) :
    (datL2 V c).flushed 4 t = ((cfg2.win 4).blk t).view.read (Elt Ideal) (layerArrL2 V c) := by
  have h3 : t.val % 4 = 3 := (flushL2_iff t).mp hf
  refine funext fun (y : S1024x64.Idx) => ?_
  rw [ValueIdx.eq_ix2 y]
  exact flushedL2_at V c t h3 (y 0) (y 1)

theorem memL2_blk (t : Fin cfg2.N) (row : Fin 8192) (col : Fin 64) :
    ValueIdx.ix2 row col ∈ ((cfg2.win 4).blk t).view.set
      ↔ ∀ a : Fin 2, win2_4.index t a * S1024x64.size a ≤ (ValueIdx.ix2 row col a).val
          ∧ (ValueIdx.ix2 row col a).val < win2_4.index t a * S1024x64.size a + S1024x64.size a := by
  show ValueIdx.ix2 row col ∈ ((View.whole (Pipeline.arrRef spec2 4)).slice (win2_4.rect t)).set ↔ _
  rw [View.set_slice_whole, Rect.mem_set_unit]
  exact Iff.rfl

/-- What the layer leaves in its output array is the layer of the specification: row r lies in the output block of point 4 (r / 1024) + 3. -/
theorem layerL2_value (V : (c : Dev nD) → (b : Ref sig .tc) → Buf (Elt Ideal) ((c : Thread nD τ).loc b)) (c : Dev nD) (row : Fin 8192) (col : Fin 64) :
    (datL2 (F := Ideal) V c).arrAt 4 cfg2.N (ValueIdx.ix2 row col)
      = Gcn.layer (fun a b => V c (Pipeline.arrRef spec2 0) (ValueIdx.ix2 a b)) (fun a b => V c (Pipeline.arrRef spec2 1) (ValueIdx.ix2 a b))
          (fun a b => V c (Pipeline.arrRef spec2 2) (ValueIdx.ix2 a b)) (fun b => V c (Pipeline.arrRef spec2 3) (ValueIdx.ix2 (0 : Fin 1) b)) row col := by
  have hN : cfg2.N = 32 := N_2
  have hr := row.isLt
  have hc := col.isLt
  have lt : 4 * (row.val / 1024) + 3 < cfg2.N := by omega
  obtain ⟨-, -, -, -, -, -, -, -, e8, e9⟩ := idxL2 ⟨4 * (row.val / 1024) + 3, lt⟩
  have hf : (cfg2.win 4).flush ⟨4 * (row.val / 1024) + 3, lt⟩ = true :=
    (flushL2_iff ⟨4 * (row.val / 1024) + 3, lt⟩).mpr (by show (4 * (row.val / 1024) + 3) % 4 = 3; omega)
  have hm : ValueIdx.ix2 row col ∈ ((cfg2.win 4).blk ⟨4 * (row.val / 1024) + 3, lt⟩).view.set := by
    rw [memL2_blk]
    intro a
    match a with
    | ⟨0, _⟩ =>
      show win2_4.index ⟨4 * (row.val / 1024) + 3, lt⟩ (0 : Fin 2) * 1024 ≤ row.val
        ∧ row.val < win2_4.index ⟨4 * (row.val / 1024) + 3, lt⟩ (0 : Fin 2) * 1024 + 1024
      rw [e8]; show (4 * (row.val / 1024) + 3) / 4 * 1024 ≤ row.val ∧ row.val < (4 * (row.val / 1024) + 3) / 4 * 1024 + 1024; omega
    | ⟨1, _⟩ =>
      show win2_4.index ⟨4 * (row.val / 1024) + 3, lt⟩ (1 : Fin 2) * S1024x64.size 1 ≤ col.val
        ∧ col.val < win2_4.index ⟨4 * (row.val / 1024) + 3, lt⟩ (1 : Fin 2) * S1024x64.size 1 + S1024x64.size 1
      rw [e9, Nat.zero_mul, Nat.zero_add]; exact ⟨Nat.zero_le _, col.isLt⟩
  exact (datL2 V c).arrAt_apply_of_mem 4 (layerArrL2 V c) (flushedL2_eq V c) cfg2.N ⟨4 * (row.val / 1024) + 3, lt⟩
    (ValueIdx.ix2 row col) lt hf hm

end Cert.KernelIdeal.Gcn
end
-- ==== Proof.KI.Glue.lean ====
import proofs.«114493_j18348100288854_1_alg».proof.Proof.Gen.KernelIdeal.Launch
import proofs.«114493_j18348100288854_1_alg».proof.Proof.Spec
import proofs.«114493_j18348100288854_1_alg».proof.Proof.MatMul
import Idealize.ShloMosaic.Lib.StableHlo.Run
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Gcn

open Idealize.ShloMosaic Idealize.ShloMosaic.TcCoe Idealize.SL.Sem Idealize.ShloMosaic.StableHlo
open Cert.KernelIdeal Cert.KernelIdeal.Gen

theorem bias0_value (W : Valuation τ sig (Elt Ideal)) (col : Fin 16) :
    StableHlo.after hostOps0 W (Proc.devRef .tc main_v0) (ValueIdx.ix2 (0 : Fin 1) col)
      = W (Proc.devRef .tc main_arg3) (ValueIdx.ix1 col) := by
  after_results
  exact ValueIdx.shapeCast_a_1a_apply (W (Proc.devRef .tc main_arg3)) shapeCasts_S16_S1x16 0 col

theorem bias1_value (W : Valuation τ sig (Elt Ideal)) (col : Fin 32) :
    StableHlo.after hostOps1 W (Proc.devRef .tc main_v2) (ValueIdx.ix2 (0 : Fin 1) col)
      = W (Proc.devRef .tc main_arg5) (ValueIdx.ix1 col) := by
  after_results
  exact ValueIdx.shapeCast_a_1a_apply (W (Proc.devRef .tc main_arg5)) shapeCasts_S32_S1x32 0 col

theorem bias2_value (W : Valuation τ sig (Elt Ideal)) (col : Fin 64) :
    StableHlo.after hostOps2 W (Proc.devRef .tc main_v4) (ValueIdx.ix2 (0 : Fin 1) col)
      = W (Proc.devRef .tc main_arg7) (ValueIdx.ix1 col) := by
  after_results
  exact ValueIdx.shapeCast_a_1a_apply (W (Proc.devRef .tc main_arg7)) shapeCasts_S64_S1x64 0 col

theorem hidden_bias_apply (b : FVec Ideal S32 .f32) (r : Fin 8192) (e : Fin 32) :
    broadcastInDim S8192x32 ![0, 1] bcast_S1x32_S8192x32_0_1 (broadcastInDim S1x32 ![1] bcast_S32_S1x32_1 b) (ValueIdx.ix2 r e)
      = b (ValueIdx.ix1 e) := by
  refine (broadcastInDim_apply _ bcast_S1x32_S8192x32_0_1 _ (ValueIdx.ix2 r e) (ValueIdx.ix2 (0 : Fin 1) e) (fun ax => ?_)).trans
    (broadcastInDim_apply _ bcast_S32_S1x32_1 b (ValueIdx.ix2 (0 : Fin 1) e) (ValueIdx.ix1 e) (fun ax => ?_))
  · match ax with
    | ⟨0, _⟩ => show 0 = if (1 : Nat) = 1 then 0 else r.val; rw [if_pos rfl]
    | ⟨1, _⟩ => show e.val = if (32 : Nat) = 1 then 0 else e.val; rw [if_neg (by decide)]
  · match ax with
    | ⟨0, _⟩ => show e.val = if (32 : Nat) = 1 then 0 else e.val; rw [if_neg (by decide)]

theorem out_bias_apply (b : FVec Ideal S10 .f32) (r : Fin 8192) (col : Fin 10) :
    broadcastInDim S8192x10 ![0, 1] bcast_S1x10_S8192x10_0_1 (broadcastInDim S1x10 ![1] bcast_S10_S1x10_1 b) (ValueIdx.ix2 r col)
      = b (ValueIdx.ix1 col) := by
  refine (broadcastInDim_apply _ bcast_S1x10_S8192x10_0_1 _ (ValueIdx.ix2 r col) (ValueIdx.ix2 (0 : Fin 1) col) (fun ax => ?_)).trans
    (broadcastInDim_apply _ bcast_S10_S1x10_1 b (ValueIdx.ix2 (0 : Fin 1) col) (ValueIdx.ix1 col) (fun ax => ?_))
  · match ax with
    | ⟨0, _⟩ => show 0 = if (1 : Nat) = 1 then 0 else r.val; rw [if_pos rfl]
    | ⟨1, _⟩ => show col.val = if (10 : Nat) = 1 then 0 else col.val; rw [if_neg (by decide)]
  · match ax with
    | ⟨0, _⟩ => show col.val = if (10 : Nat) = 1 then 0 else col.val; rw [if_neg (by decide)]

theorem zero_matrix_apply (j : S8192x32.Idx) :
    broadcastInDim S8192x32 ![] bcast_S_S8192x32 (constant (F := Ideal) S_ .f32 0x00000000#32) j = 0 :=
  (broadcastInDim_apply _ bcast_S_S8192x32 _ j ValueIdx.ix0 (fun ax => ax.elim0)).trans Ideal.ofBits_zero_f32

/-- After the host work that follows the third layer the result is the specification's head of that layer's output. -/
theorem head_value (W : Valuation τ sig (Elt Ideal)) (row : Fin 8192) (col : Fin 10) :
    StableHlo.after hostOps3_2 (StableHlo.after hostOps3_1 (StableHlo.after hostOps3 W)) (Proc.devRef .tc main_v14) (ValueIdx.ix2 row col)
      = Gcn.head (fun a b => W (Proc.devRef .tc main_v5) (ValueIdx.ix2 a b)) (fun a b => W (Proc.devRef .tc main_arg8) (ValueIdx.ix2 a b))
          (fun b => W (Proc.devRef .tc main_arg9) (ValueIdx.ix1 b))
          (fun a b => W (Proc.devRef .tc main_arg10) (ValueIdx.ix2 a b)) (fun b => W (Proc.devRef .tc main_arg11) (ValueIdx.ix1 b)) row col := by
  after_results
  unfold Gcn.head Gcn.affine
  refine (ValueIdx.addf_apply _ _ _).trans ?_
  refine congrArg₂ (· + ·) ?_ (out_bias_apply _ row col)
  refine (Gcn.dotGeneral_ix2 dot_S8192x32_S32x10_S8192x10_1_0_0_1_n_n rfl rfl (fun _ _ => rfl) (fun _ _ => rfl)
    (fun _ _ => rfl) (fun _ _ => rfl) _ _ row col).trans ?_
  refine Finset.sum_congr rfl fun e _ => ?_
  refine congrArg (· * _) ?_
  refine (ValueIdx.maximumf_apply _ _ _).trans ?_
  refine congrArg₂ max ?_ (zero_matrix_apply (ValueIdx.ix2 row e))
  refine (ValueIdx.addf_apply _ _ _).trans ?_
  exact congrArg₂ (· + ·) (Gcn.dotGeneral_ix2 dot_S8192x64_S64x32_S8192x32_1_0_0_1_n_n rfl rfl (fun _ _ => rfl) (fun _ _ => rfl)
    (fun _ _ => rfl) (fun _ _ => rfl) _ _ row e)
    (hidden_bias_apply _ row e)

end Cert.KernelIdeal.Gcn

end
-- ==== Proof.KI.Net.lean ====
import proofs.«114493_j18348100288854_1_alg».proof.Proof.KI.Launch
import proofs.«114493_j18348100288854_1_alg».proof.Proof.KI.L0Value
import proofs.«114493_j18348100288854_1_alg».proof.Proof.KI.L1Value
import proofs.«114493_j18348100288854_1_alg».proof.Proof.KI.L2Value
import proofs.«114493_j18348100288854_1_alg».proof.Proof.KI.Glue

set_option maxRecDepth 16384

noncomputable section

namespace Cert.KernelIdeal.Gcn

open Idealize.ShloMosaic Idealize.ShloMosaic.TcCoe Idealize.ShloMosaic.Tactic
open Cert.KernelIdeal Cert.KernelIdeal.Gen

variable (m : (ℓ : Loc nD τ sig) → Buf (Elt Ideal) ℓ)

theorem W1_launch (c : Dev nD) (r : Ref sig .tc) (h0 : r ∉ hostOps0_W) :
    W1 m c (Proc.devRef .tc r) = m ((c : Thread nD τ).loc r) :=
  StableHlo.after_of_writes_sub hostOps0 _ hostOps0_writes h0

theorem W2_launch (c : Dev nD) (r : Ref sig .tc) (h0 : r ∉ hostOps0_W) (h1 : r ≠ main_v1) :
    W2 m c (Proc.devRef .tc r) = m ((c : Thread nD τ).loc r) :=
  (W2_keeps m c r h1).trans (W1_launch m c r h0)

theorem W3_of_W2 (c : Dev nD) (r : Ref sig .tc) (h2 : r ∉ hostOps1_W) :
    W3 m c (Proc.devRef .tc r) = W2 m c (Proc.devRef .tc r) :=
  StableHlo.after_of_writes_sub hostOps1 _ hostOps1_writes h2

theorem W3_launch (c : Dev nD) (r : Ref sig .tc) (h0 : r ∉ hostOps0_W) (h1 : r ≠ main_v1) (h2 : r ∉ hostOps1_W) :
    W3 m c (Proc.devRef .tc r) = m ((c : Thread nD τ).loc r) :=
  (W3_of_W2 m c r h2).trans (W2_launch m c r h0 h1)

theorem W4_launch (c : Dev nD) (r : Ref sig .tc) (h0 : r ∉ hostOps0_W) (h1 : r ≠ main_v1) (h2 : r ∉ hostOps1_W) (h3 : r ≠ main_v3) :
    W4 m c (Proc.devRef .tc r) = m ((c : Thread nD τ).loc r) :=
  (W4_keeps m c r h3).trans (W3_launch m c r h0 h1 h2)

theorem W5_of_W4 (c : Dev nD) (r : Ref sig .tc) (h4 : r ∉ hostOps2_W) :
    W5 m c (Proc.devRef .tc r) = W4 m c (Proc.devRef .tc r) :=
  StableHlo.after_of_writes_sub hostOps2 _ hostOps2_writes h4

theorem W5_launch (c : Dev nD) (r : Ref sig .tc) (h0 : r ∉ hostOps0_W) (h1 : r ≠ main_v1) (h2 : r ∉ hostOps1_W) (h3 : r ≠ main_v3)
    (h4 : r ∉ hostOps2_W) : W5 m c (Proc.devRef .tc r) = m ((c : Thread nD τ).loc r) :=
  (W5_of_W4 m c r h4).trans (W4_launch m c r h0 h1 h2 h3)

theorem W6_launch (c : Dev nD) (r : Ref sig .tc) (h0 : r ∉ hostOps0_W) (h1 : r ≠ main_v1) (h2 : r ∉ hostOps1_W) (h3 : r ≠ main_v3)
    (h4 : r ∉ hostOps2_W) (h5 : r ≠ main_v5) : W6 m c (Proc.devRef .tc r) = m ((c : Thread nD τ).loc r) :=
  (W6_keeps m c r h5).trans (W5_launch m c r h0 h1 h2 h3 h4)

abbrev xF (c : Dev nD) : Fin 8192 → Fin 128 → EReal := fun a b => m ((c : Thread nD τ).loc main_arg0) (ValueIdx.ix2 a b)
abbrev adjF (c : Dev nD) : Fin 8192 → Fin 8192 → EReal := fun a b => m ((c : Thread nD τ).loc main_arg1) (ValueIdx.ix2 a b)
abbrev w0F (c : Dev nD) : Fin 128 → Fin 16 → EReal := fun a b => m ((c : Thread nD τ).loc main_arg2) (ValueIdx.ix2 a b)
abbrev b0F (c : Dev nD) : Fin 16 → EReal := fun b => m ((c : Thread nD τ).loc main_arg3) (ValueIdx.ix1 b)
abbrev w1F (c : Dev nD) : Fin 16 → Fin 32 → EReal := fun a b => m ((c : Thread nD τ).loc main_arg4) (ValueIdx.ix2 a b)
abbrev b1F (c : Dev nD) : Fin 32 → EReal := fun b => m ((c : Thread nD τ).loc main_arg5) (ValueIdx.ix1 b)
abbrev w2F (c : Dev nD) : Fin 32 → Fin 64 → EReal := fun a b => m ((c : Thread nD τ).loc main_arg6) (ValueIdx.ix2 a b)
abbrev b2F (c : Dev nD) : Fin 64 → EReal := fun b => m ((c : Thread nD τ).loc main_arg7) (ValueIdx.ix1 b)
abbrev wo0F (c : Dev nD) : Fin 64 → Fin 32 → EReal := fun a b => m ((c : Thread nD τ).loc main_arg8) (ValueIdx.ix2 a b)
abbrev bo0F (c : Dev nD) : Fin 32 → EReal := fun b => m ((c : Thread nD τ).loc main_arg9) (ValueIdx.ix1 b)
abbrev wo1F (c : Dev nD) : Fin 32 → Fin 10 → EReal := fun a b => m ((c : Thread nD τ).loc main_arg10) (ValueIdx.ix2 a b)
abbrev bo1F (c : Dev nD) : Fin 10 → EReal := fun b => m ((c : Thread nD τ).loc main_arg11) (ValueIdx.ix1 b)

theorem hidden1 (c : Dev nD) :
    (fun a b => W2 m c (Proc.devRef .tc main_v1) (ValueIdx.ix2 a b))
      = Gcn.layer (adjF m c) (xF m c) (w0F m c) (b0F m c) := by
  funext a b
  rw [W2_out, layerL0_value]
  have e0 : (fun a b => V1 m c (Pipeline.arrRef spec0 0) (ValueIdx.ix2 a b)) = adjF m c := by
    funext a b; exact congrFun (W1_launch m c main_arg1 (by decide)) _
  have e1 : (fun a b => V1 m c (Pipeline.arrRef spec0 1) (ValueIdx.ix2 a b)) = xF m c := by
    funext a b; exact congrFun (W1_launch m c main_arg0 (by decide)) _
  have e2 : (fun a b => V1 m c (Pipeline.arrRef spec0 2) (ValueIdx.ix2 a b)) = w0F m c := by
    funext a b; exact congrFun (W1_launch m c main_arg2 (by decide)) _
  have e3 : (fun b => V1 m c (Pipeline.arrRef spec0 3) (ValueIdx.ix2 (0 : Fin 1) b)) = b0F m c := by
    funext b; exact bias0_value (W0 m c) b
  rw [e0, e1, e2, e3]

theorem hidden2 (c : Dev nD) :
    (fun a b => W4 m c (Proc.devRef .tc main_v3) (ValueIdx.ix2 a b))
      = Gcn.layer (adjF m c) (Gcn.layer (adjF m c) (xF m c) (w0F m c) (b0F m c)) (w1F m c) (b1F m c) := by
  funext a b
  rw [W4_out, layerL1_value]
  have e0 : (fun a b => V3 m c (Pipeline.arrRef spec1 0) (ValueIdx.ix2 a b)) = adjF m c := by
    funext a b; exact congrFun (W3_launch m c main_arg1 (by decide) (by decide) (by decide)) _
  have e1 : (fun a b => V3 m c (Pipeline.arrRef spec1 1) (ValueIdx.ix2 a b))
      = Gcn.layer (adjF m c) (xF m c) (w0F m c) (b0F m c) := by
    rw [← hidden1 m c]; funext a b; exact congrFun (W3_of_W2 m c main_v1 (by decide)) _
  have e2 : (fun a b => V3 m c (Pipeline.arrRef spec1 2) (ValueIdx.ix2 a b)) = w1F m c := by
    funext a b; exact congrFun (W3_launch m c main_arg4 (by decide) (by decide) (by decide)) _
  have e3 : (fun b => V3 m c (Pipeline.arrRef spec1 3) (ValueIdx.ix2 (0 : Fin 1) b)) = b1F m c := by
    funext b; exact (bias1_value (W2 m c) b).trans (congrFun (W2_launch m c main_arg5 (by decide) (by decide)) _)
  rw [e0, e1, e2, e3]

theorem hidden3 (c : Dev nD) :
    (fun a b => W6 m c (Proc.devRef .tc main_v5) (ValueIdx.ix2 a b))
      = Gcn.layer (adjF m c) (Gcn.layer (adjF m c) (Gcn.layer (adjF m c) (xF m c) (w0F m c) (b0F m c)) (w1F m c) (b1F m c))
          (w2F m c) (b2F m c) := by
  funext a b
  rw [W6_out, layerL2_value]
  have e0 : (fun a b => V5 m c (Pipeline.arrRef spec2 0) (ValueIdx.ix2 a b)) = adjF m c := by
    funext a b; exact congrFun (W5_launch m c main_arg1 (by decide) (by decide) (by decide) (by decide) (by decide)) _
  have e1 : (fun a b => V5 m c (Pipeline.arrRef spec2 1) (ValueIdx.ix2 a b))
      = Gcn.layer (adjF m c) (Gcn.layer (adjF m c) (xF m c) (w0F m c) (b0F m c)) (w1F m c) (b1F m c) := by
    rw [← hidden2 m c]; funext a b; exact congrFun (W5_of_W4 m c main_v3 (by decide)) _
  have e2 : (fun a b => V5 m c (Pipeline.arrRef spec2 2) (ValueIdx.ix2 a b)) = w2F m c := by
    funext a b; exact congrFun (W5_launch m c main_arg6 (by decide) (by decide) (by decide) (by decide) (by decide)) _
  have e3 : (fun b => V5 m c (Pipeline.arrRef spec2 3) (ValueIdx.ix2 (0 : Fin 1) b)) = b2F m c := by
    funext b
    exact (bias2_value (W4 m c) b).trans (congrFun (W4_launch m c main_arg7 (by decide) (by decide) (by decide) (by decide)) _)
  rw [e0, e1, e2, e3]

/-- The kernel's result array, entry by entry, is the network of the launch arguments: nothing but the bias rows and the layers' outputs is written. -/
theorem kernel_value (c : Dev nD) (row : Fin 8192) (col : Fin 10) :
    W9 m c (Proc.devRef .tc main_v14) (ValueIdx.ix2 row col)
      = Gcn.net (xF m c) (adjF m c) (w0F m c) (b0F m c) (w1F m c) (b1F m c) (w2F m c) (b2F m c) (wo0F m c) (bo0F m c)
          (wo1F m c) (bo1F m c) row col := by
  unfold Gcn.net
  rw [← hidden3 m c]
  refine (head_value (W6 m c) row col).trans ?_
  have e8 : (fun a b => W6 m c (Proc.devRef .tc main_arg8) (ValueIdx.ix2 a b)) = wo0F m c := by
    funext a b; exact congrFun (W6_launch m c main_arg8 (by decide) (by decide) (by decide) (by decide) (by decide) (by decide)) _
  have e9 : (fun b => W6 m c (Proc.devRef .tc main_arg9) (ValueIdx.ix1 b)) = bo0F m c := by
    funext b; exact congrFun (W6_launch m c main_arg9 (by decide) (by decide) (by decide) (by decide) (by decide) (by decide)) _
  have e10 : (fun a b => W6 m c (Proc.devRef .tc main_arg10) (ValueIdx.ix2 a b)) = wo1F m c := by
    funext a b; exact congrFun (W6_launch m c main_arg10 (by decide) (by decide) (by decide) (by decide) (by decide) (by decide)) _
  have e11 : (fun b => W6 m c (Proc.devRef .tc main_arg11) (ValueIdx.ix1 b)) = bo1F m c := by
    funext b; exact congrFun (W6_launch m c main_arg11 (by decide) (by decide) (by decide) (by decide) (by decide) (by decide)) _
  rw [e8, e9, e10, e11]

end Cert.KernelIdeal.Gcn

end
-- ==== Proof.Ref.Imports.lean ====
import proofs.«114493_j18348100288854_1_alg».proof.Proof.Gen.ReferenceIdeal.Run
import proofs.«114493_j18348100288854_1_alg».proof.Proof.Gen.ReferenceIdeal.Read
-- ==== Proof.Ref.Value.lean ====
import proofs.«114493_j18348100288854_1_alg».proof.Proof.Ref.Imports
import proofs.«114493_j18348100288854_1_alg».proof.Proof.Spec
import proofs.«114493_j18348100288854_1_alg».proof.Defs
import proofs.«114493_j18348100288854_1_alg».proof.Proof.Gen.Pre_finite_inputs
import Idealize.ShloMosaic.Lib.ValueIdx
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx
open scoped BigOperators

/-- An index is determined by its coordinates. -/
theorem idx_eq_ix2 {n0 n1 : ℕ} (j : (⟨2, ![n0, n1]⟩ : Shape).Idx) (a : Fin n0) (b : Fin n1)
    (h0 : (j 0).val = a.val) (h1 : (j 1).val = b.val) : j = ix2 a b := by
  funext d
  match d with
  | ⟨0, _⟩ => exact Fin.ext h0
  | ⟨1, _⟩ => exact Fin.ext h1

theorem idx_eq_ix1 {n : ℕ} (j : (⟨1, ![n]⟩ : Shape).Idx) (a : Fin n) (h0 : (j 0).val = a.val) : j = ix1 a := by
  funext d
  match d with
  | ⟨0, _⟩ => exact Fin.ext h0

theorem zero_word : FloatOps.ofBits (F := Ideal) .f32 0x00000000#32 = (0 : EReal) := Ideal.ofBits_zero_f32

variable (x0 : (⟨S8192x128, .f32⟩ : BufTy).Contents (Elt Ideal)) (x1 : (⟨S8192x8192, .f32⟩ : BufTy).Contents (Elt Ideal)) (x2 : (⟨S128x16, .f32⟩ : BufTy).Contents (Elt Ideal)) (x3 : (⟨S16, .f32⟩ : BufTy).Contents (Elt Ideal)) (x4 : (⟨S16x32, .f32⟩ : BufTy).Contents (Elt Ideal)) (x5 : (⟨S32, .f32⟩ : BufTy).Contents (Elt Ideal)) (x6 : (⟨S32x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x10, .f32⟩ : BufTy).Contents (Elt Ideal)) (x11 : (⟨S10, .f32⟩ : BufTy).Contents (Elt Ideal))

section Layer0

theorem affine0 (j : Fin 8192) (col : Fin 16) :
    val_main_v3 (F := Ideal) x0 x2 x3 (ix2 j col)
      = Gcn.affine (fun a b => x0 (ix2 a b)) (fun a b => x2 (ix2 a b)) (fun b => x3 (ix1 b)) j col := by
  rw [val_main_v3_apply, val_main_v0_apply, val_main_v2_apply, val_main_v1_apply, Ideal.addf_def]
  refine congrArg₂ (· + ·) (Finset.sum_congr rfl fun k _ => ?_) ?_
  · exact congrArg₂ (· * ·) (congrArg x0 (idx_eq_ix2 _ j k rfl rfl)) (congrArg x2 (idx_eq_ix2 _ k col rfl rfl))
  · exact congrArg x3 (idx_eq_ix1 _ col rfl)

theorem layer0 (r : Fin 8192) (col : Fin 16) :
    val_main_v5 (F := Ideal) x0 x1 x2 x3 (ix2 r col)
      = Gcn.layer (fun a b => x1 (ix2 a b)) (fun a b => x0 (ix2 a b)) (fun a b => x2 (ix2 a b)) (fun b => x3 (ix1 b)) r col := by
  rw [val_main_v5_apply, val_main_v4_apply, val_main_call0_v0_apply, val_main_call0_cst_apply, Ideal.maximumf_def, zero_word]
  refine congrArg (max · 0) (Finset.sum_congr rfl fun k _ => ?_)
  rw [idx_eq_ix2 (ridx_main_v4 (ix2 r col) k) k col rfl rfl, affine0]
  exact congrArg (· * _) (congrArg x1 (idx_eq_ix2 _ r k rfl rfl))

end Layer0

section Layer1

theorem affine1 (j : Fin 8192) (col : Fin 32) :
    val_main_v9 (F := Ideal) x0 x1 x2 x3 x4 x5 (ix2 j col)
      = Gcn.affine (fun a b => val_main_v5 (F := Ideal) x0 x1 x2 x3 (ix2 a b)) (fun a b => x4 (ix2 a b)) (fun b => x5 (ix1 b)) j col := by
  rw [val_main_v9_apply, val_main_v6_apply, val_main_v8_apply, val_main_v7_apply, Ideal.addf_def]
  refine congrArg₂ (· + ·) (Finset.sum_congr rfl fun k _ => ?_) ?_
  · exact congrArg₂ (· * ·) (congrArg (val_main_v5 (F := Ideal) x0 x1 x2 x3) (idx_eq_ix2 _ j k rfl rfl)) (congrArg x4 (idx_eq_ix2 _ k col rfl rfl))
  · exact congrArg x5 (idx_eq_ix1 _ col rfl)

theorem layer1 (r : Fin 8192) (col : Fin 32) :
    val_main_v11 (F := Ideal) x0 x1 x2 x3 x4 x5 (ix2 r col)
      = Gcn.layer (fun a b => x1 (ix2 a b)) (fun a b => val_main_v5 (F := Ideal) x0 x1 x2 x3 (ix2 a b)) (fun a b => x4 (ix2 a b)) (fun b => x5 (ix1 b)) r col := by
  rw [val_main_v11_apply, val_main_v10_apply, val_main_call1_v0_apply, val_main_call1_cst_apply, Ideal.maximumf_def, zero_word]
  refine congrArg (max · 0) (Finset.sum_congr rfl fun k _ => ?_)
  rw [idx_eq_ix2 (ridx_main_v10 (ix2 r col) k) k col rfl rfl, affine1]
  exact congrArg (· * _) (congrArg x1 (idx_eq_ix2 _ r k rfl rfl))

end Layer1

section Layer2

theorem affine2 (j : Fin 8192) (col : Fin 64) :
    val_main_v15 (F := Ideal) x0 x1 x2 x3 x4 x5 x6 x7 (ix2 j col)
      = Gcn.affine (fun a b => val_main_v11 (F := Ideal) x0 x1 x2 x3 x4 x5 (ix2 a b)) (fun a b => x6 (ix2 a b)) (fun b => x7 (ix1 b)) j col := by
  rw [val_main_v15_apply, val_main_v12_apply, val_main_v14_apply, val_main_v13_apply, Ideal.addf_def]
  refine congrArg₂ (· + ·) (Finset.sum_congr rfl fun k _ => ?_) ?_
  · exact congrArg₂ (· * ·) (congrArg (val_main_v11 (F := Ideal) x0 x1 x2 x3 x4 x5) (idx_eq_ix2 _ j k rfl rfl)) (congrArg x6 (idx_eq_ix2 _ k col rfl rfl))
  · exact congrArg x7 (idx_eq_ix1 _ col rfl)

theorem layer2 (r : Fin 8192) (col : Fin 64) :
    val_main_v17 (F := Ideal) x0 x1 x2 x3 x4 x5 x6 x7 (ix2 r col)
      = Gcn.layer (fun a b => x1 (ix2 a b)) (fun a b => val_main_v11 (F := Ideal) x0 x1 x2 x3 x4 x5 (ix2 a b)) (fun a b => x6 (ix2 a b)) (fun b => x7 (ix1 b)) r col := by
  rw [val_main_v17_apply, val_main_v16_apply, val_main_call2_v0_apply, val_main_call2_cst_apply, Ideal.maximumf_def, zero_word]
  refine congrArg (max · 0) (Finset.sum_congr rfl fun k _ => ?_)
  rw [idx_eq_ix2 (ridx_main_v16 (ix2 r col) k) k col rfl rfl, affine2]
  exact congrArg (· * _) (congrArg x1 (idx_eq_ix2 _ r k rfl rfl))

end Layer2

section Head

theorem headAffine (r : Fin 8192) (e : Fin 32) :
    val_main_v21 (F := Ideal) x0 x1 x2 x3 x4 x5 x6 x7 x8 x9 (ix2 r e)
      = Gcn.affine (fun a b => val_main_v17 (F := Ideal) x0 x1 x2 x3 x4 x5 x6 x7 (ix2 a b)) (fun a b => x8 (ix2 a b)) (fun b => x9 (ix1 b)) r e := by
  rw [val_main_v21_apply, val_main_v18_apply, val_main_v20_apply, val_main_v19_apply, Ideal.addf_def]
  refine congrArg₂ (· + ·) (Finset.sum_congr rfl fun k _ => ?_) ?_
  · exact congrArg₂ (· * ·) (congrArg (val_main_v17 (F := Ideal) x0 x1 x2 x3 x4 x5 x6 x7) (idx_eq_ix2 _ r k rfl rfl)) (congrArg x8 (idx_eq_ix2 _ k e rfl rfl))
  · exact congrArg x9 (idx_eq_ix1 _ e rfl)

theorem head_eq (r : Fin 8192) (col : Fin 10) :
    val_main_v26 (F := Ideal) x0 x1 x2 x3 x4 x5 x6 x7 x8 x9 x10 x11 (ix2 r col)
      = Gcn.head (fun a b => val_main_v17 (F := Ideal) x0 x1 x2 x3 x4 x5 x6 x7 (ix2 a b)) (fun a b => x8 (ix2 a b)) (fun b => x9 (ix1 b)) (fun a b => x10 (ix2 a b)) (fun b => x11 (ix1 b)) r col := by
  rw [val_main_v26_apply, val_main_v23_apply, val_main_v25_apply, val_main_v24_apply, Ideal.addf_def]
  refine congrArg₂ (· + ·) (Finset.sum_congr rfl fun e _ => ?_) ?_
  · rw [idx_eq_ix2 (lidx_main_v23 (ix2 r col) e) r e rfl rfl, val_main_v22_apply, val_main_call3_v0_apply,
      val_main_call3_cst_apply, Ideal.maximumf_def, zero_word, headAffine]
    exact congrArg (_ * ·) (congrArg x10 (idx_eq_ix2 _ e col rfl rfl))
  · exact congrArg x11 (idx_eq_ix1 _ col rfl)

/-- The reference's last stage at (row, col) is the network of its twelve arguments: the head of three stacked layers. -/
theorem net_eq (row : Fin 8192) (col : Fin 10) :
    val_main_v26 (F := Ideal) x0 x1 x2 x3 x4 x5 x6 x7 x8 x9 x10 x11 (ix2 row col)
      = Gcn.net (fun a b => x0 (ix2 a b)) (fun a b => x1 (ix2 a b)) (fun a b => x2 (ix2 a b)) (fun b => x3 (ix1 b)) (fun a b => x4 (ix2 a b)) (fun b => x5 (ix1 b)) (fun a b => x6 (ix2 a b)) (fun b => x7 (ix1 b)) (fun a b => x8 (ix2 a b)) (fun b => x9 (ix1 b)) (fun a b => x10 (ix2 a b)) (fun b => x11 (ix1 b)) row col := by
  have first : (fun a b => val_main_v5 (F := Ideal) x0 x1 x2 x3 (ix2 a b)) = Gcn.layer (fun a b => x1 (ix2 a b)) (fun a b => x0 (ix2 a b)) (fun a b => x2 (ix2 a b)) (fun b => x3 (ix1 b)) :=
    funext fun a => funext fun b => layer0 x0 x1 x2 x3 a b
  have second : (fun a b => val_main_v11 (F := Ideal) x0 x1 x2 x3 x4 x5 (ix2 a b)) = Gcn.layer (fun a b => x1 (ix2 a b)) (fun a b => val_main_v5 (F := Ideal) x0 x1 x2 x3 (ix2 a b)) (fun a b => x4 (ix2 a b)) (fun b => x5 (ix1 b)) :=
    funext fun a => funext fun b => layer1 x0 x1 x2 x3 x4 x5 a b
  have third : (fun a b => val_main_v17 (F := Ideal) x0 x1 x2 x3 x4 x5 x6 x7 (ix2 a b)) = Gcn.layer (fun a b => x1 (ix2 a b)) (fun a b => val_main_v11 (F := Ideal) x0 x1 x2 x3 x4 x5 (ix2 a b)) (fun a b => x6 (ix2 a b)) (fun b => x7 (ix1 b)) :=
    funext fun a => funext fun b => layer2 x0 x1 x2 x3 x4 x5 x6 x7 a b
  exact (head_eq x0 x1 x2 x3 x4 x5 x6 x7 x8 x9 x10 x11 row col).trans
    (congrArg (fun h => Gcn.head h (fun a b => x8 (ix2 a b)) (fun b => x9 (ix1 b)) (fun a b => x10 (ix2 a b)) (fun b => x11 (ix1 b)) row col)
      (third.trans (congrArg (fun h => Gcn.layer (fun a b => x1 (ix2 a b)) h (fun a b => x6 (ix2 a b)) (fun b => x7 (ix1 b)))
        (second.trans (congrArg (fun h => Gcn.layer (fun a b => x1 (ix2 a b)) h (fun a b => x4 (ix2 a b)) (fun b => x5 (ix1 b))) first)))))

end Head

theorem frame_ref : Cert.frame_ReferenceIdeal :=
  fun m ρ _ => (θ_run Cert.ReferenceIdeal.defs _ _).mono (fun _ h c => (h c).2) (Cert.ReferenceIdeal.Value.run (F := Ideal) m ρ)

end Cert.ReferenceIdeal.RefValue

end
-- ==== Proof.lean ====
import proofs.«114493_j18348100288854_1_alg».proof.Defs
import proofs.«114493_j18348100288854_1_alg».proof.Proof.Gen.Kernel
import proofs.«114493_j18348100288854_1_alg».proof.Proof.Gen.KernelIdeal
import proofs.«114493_j18348100288854_1_alg».proof.Proof.Gen.ReferenceIdeal
import proofs.«114493_j18348100288854_1_alg».proof.Proof.Gen.Pre_finite_inputs
import proofs.«114493_j18348100288854_1_alg».proof.Proof.K.Launch
import proofs.«114493_j18348100288854_1_alg».proof.Proof.KI.Net
import proofs.«114493_j18348100288854_1_alg».proof.Proof.Ref.Value
import Idealize.ShloMosaic.Adequacy
import Idealize.ShloMosaic.Init

noncomputable section

namespace Cert.Proof

open Idealize.ShloMosaic Idealize.ShloMosaic.TcCoe Idealize.SL.Sem

/-- Each kernel program runs to the end with its buffers at the last boundary's contents, and no stretch writes an argument. -/
theorem frame_kernel : Cert.frame_Kernel := fun m ρ _ =>
  (θ_run Cert.Kernel.defs _ _).mono (fun r h c => by
    refine ⟨?_, ?_, ?_, ?_, ?_, ?_, ?_, ?_, ?_, ?_, ?_, ?_⟩ <;> exact Cert.Kernel.Gcn.arg_kept m c _ (by decide) (by decide) _ (h c))
    (Cert.Kernel.Gcn.run_all m ρ)

theorem frame_ideal : Cert.frame_KernelIdeal := fun m ρ _ =>
  (θ_run Cert.KernelIdeal.defs _ _).mono (fun r h c => by
    refine ⟨?_, ?_, ?_, ?_, ?_, ?_, ?_, ?_, ?_, ?_, ?_, ?_⟩ <;> exact Cert.KernelIdeal.Gcn.arg_kept m c _ (by decide) (by decide) _ (h c))
    (Cert.KernelIdeal.Gcn.run_all m ρ)

theorem preserves : Cert.preserves_Kernel_KernelIdeal := trivial

/-- Both result arrays are the network `Gcn.net` of the arguments at every index: the four partial sums a row block adds to zero
    are the whole sum over the nodes, since addition of extended reals is commutative and associative everywhere. -/
theorem algebraic : Cert.algebraic_KernelIdeal_ReferenceIdeal := by
  intro m ρ m' ρ' _ hagree
  refine ⟨fun c => Cert.KernelIdeal.Gcn.W9 m c (Proc.devRef .tc Cert.KernelIdeal.main_v14), ?_, ?_⟩
  · refine (θ_run Cert.KernelIdeal.defs _ _).mono (fun r h c => ?_) (Cert.KernelIdeal.Gcn.run_all m ρ)
    refine ⟨h c _ (Cert.KernelIdeal.Gcn.unscoped_mem Cert.KernelIdeal.main_v14 (by decide)), ?_, ?_, ?_, ?_, ?_, ?_, ?_, ?_, ?_, ?_, ?_, ?_⟩ <;>
      exact Cert.KernelIdeal.Gcn.arg_kept m c _ (by decide) (by decide) _ (h c)
  · refine (θ_run Cert.ReferenceIdeal.defs _ _).mono (fun r h c => ⟨?_, (h c).2⟩)
      (Cert.ReferenceIdeal.Value.run (F := Ideal) m' ρ')
    funext j
    obtain ⟨row, col, rfl⟩ : ∃ (row : Fin 8192) (col : Fin 10), j = ValueIdx.ix2 row col := ⟨j 0, j 1, ValueIdx.eq_ix2 j⟩
    obtain ⟨h0, h1, h2, h3, h4, h5, h6, h7, h8, h9, h10, h11⟩ := hagree c
    rw [(h c).1, Cert.ReferenceIdeal.Read.val_main_v26_eq, Cert.ReferenceIdeal.RefValue.net_eq,
      h0, h1, h2, h3, h4, h5, h6, h7, h8, h9, h10, h11]
    exact (Cert.KernelIdeal.Gcn.kernel_value m c row col).symm

theorem claim : Cert.Claim :=
  ⟨Cert.Kernel.Gen.facts, Cert.KernelIdeal.Gen.facts, Cert.ReferenceIdeal.Gen.facts, Cert.Pre_finite_inputs.Gen.facts,
    frame_kernel, frame_ideal, Cert.ReferenceIdeal.RefValue.frame_ref, preserves, algebraic⟩

end Cert.Proof

end
